-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S32x32 : Shape := ⟨2, ![32, 32]⟩
abbrev S32 : Shape := ⟨1, ![32]⟩
abbrev S128x64 : Shape := ⟨2, ![128, 64]⟩
abbrev S64 : Shape := ⟨1, ![64]⟩
abbrev S64x32 : Shape := ⟨2, ![64, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1700000 : Shape := ⟨1, ![1700000]⟩
abbrev S16384 : Shape := ⟨1, ![16384]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S1700000 : S_.BroadcastsInDim S1700000 (![] : Fin 0 → Fin S1700000.rank)
  reducesTo_S1700000_S_d0 : S1700000.ReducesTo [0] S_
  bcast_S_S16384 : S_.BroadcastsInDim S16384 (![] : Fin 0 → Fin S16384.rank)
  reducesTo_S16384_S_d0 : S16384.ReducesTo [0] S_

variable [Facts]

def fn_part7 {F : FTy → Type} [FloatOps F] (main_arg25 : IVec S16384 32) (main_v115 : IVec S_ 1) (main_v117 : IVec S16384 1) (main_v118 : IVec S16384 32) : IVec S_ 1 :=
  let main_v119 : IVec S16384 1 := cmpi .slt main_arg25 main_v118
  let main_v120 : IVec S16384 1 := andi main_v117 main_v119
  let main_c_47 : IVec S_ 1 := constantI S_ 1 1#1
  let main_v121 : IVec S_ 1 := (fun x v => Host.reduce IntOp.andi x v reducesTo_S16384_S_d0 h_S_) main_v120 main_c_47
  let main_v122 : IVec S_ 1 := andi main_v115 main_v121
  main_v122

def fn_part6 {F : FTy → Type} [FloatOps F] (main_arg23 : FVec F S1700000 .f32) (main_arg24 : IVec S16384 32) (main_arg25 : IVec S16384 32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_v104 : FVec F S1700000 .f32 := Host.absf main_arg23
  let main_cst_40 : FVec F S_ .f32 := constant S_ .f32 0x7F800000#32
  let main_v105 : FVec F S1700000 .f32 := broadcastInDim S1700000 ![] bcast_S_S1700000 main_cst_40
  let main_v106 : IVec S1700000 1 := cmpf .olt main_v104 main_v105
  let main_c_41 : IVec S_ 1 := constantI S_ 1 1#1
  let main_v107 : IVec S_ 1 := (fun x v => Host.reduce IntOp.andi x v reducesTo_S1700000_S_d0 h_S_) main_v106 main_c_41
  let main_v108 : IVec S_ 1 := andi main_v103 main_v107
  let main_c_42 : IVec S_ 32 := constantI S_ 32 0#32
  let main_v109 : IVec S16384 32 := broadcastInDim S16384 ![] bcast_S_S16384 main_c_42
  let main_v110 : IVec S16384 1 := cmpi .sge main_arg24 main_v109
  let main_c_43 : IVec S_ 32 := constantI S_ 32 100000#32
  let main_v111 : IVec S16384 32 := broadcastInDim S16384 ![] bcast_S_S16384 main_c_43
  let main_v112 : IVec S16384 1 := cmpi .slt main_arg24 main_v111
  let main_v113 : IVec S16384 1 := andi main_v110 main_v112
  let main_c_44 : IVec S_ 1 := constantI S_ 1 1#1
  let main_v114 : IVec S_ 1 := (fun x v => Host.reduce IntOp.andi x v reducesTo_S16384_S_d0 h_S_) main_v113 main_c_44
  let main_v115 : IVec S_ 1 := andi main_v108 main_v114
  let main_c_45 : IVec S_ 32 := constantI S_ 32 0#32
  let main_v116 : IVec S16384 32 := broadcastInDim S16384 ![] bcast_S_S16384 main_c_45
  let main_v117 : IVec S16384 1 := cmpi .sge main_arg25 main_v116
  let main_c_46 : IVec S_ 32 := constantI S_ 32 100000#32
  let main_v118 : IVec S16384 32 := broadcastInDim S16384 ![] bcast_S_S16384 main_c_46
  fn_part7 (F := F) main_arg25 main_v115 main_v117 main_v118

def fn_part5 {F : FTy → Type} [FloatOps F] (main_arg18 : FVec F S16 .f32) (main_arg19 : FVec F S16x1 .f32) (main_arg20 : FVec F S1 .f32) (main_arg23 : FVec F S1700000 .f32) (main_arg24 : IVec S16384 32) (main_arg25 : IVec S16384 32) (main_v83 : IVec S_ 1) (main_v84 : FVec F S32x16 .f32) (main_cst_32 : FVec F S_ .f32) : IVec S_ 1 :=
  let main_v85 : FVec F S32x16 .f32 := broadcastInDim S32x16 ![] bcast_S_S32x16 main_cst_32
  let main_v86 : IVec S32x16 1 := cmpf .olt main_v84 main_v85
  let main_c_33 : IVec S_ 1 := constantI S_ 1 1#1
  let main_v87 : IVec S_ 1 := (fun x v => Host.reduce IntOp.andi x v reducesTo_S32x16_S_d0_1 h_S_) main_v86 main_c_33
  let main_v88 : IVec S_ 1 := andi main_v83 main_v87
  let main_v89 : FVec F S16 .f32 := Host.absf main_arg18
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S16x1 .f32 := Host.absf main_arg19
  let main_cst_36 : FVec F S_ .f32 := constant S_ .f32 0x7F800000#32
  let main_v95 : FVec F S16x1 .f32 := broadcastInDim S16x1 ![] bcast_S_S16x1 main_cst_36
  let main_v96 : IVec S16x1 1 := cmpf .olt main_v94 main_v95
  let main_c_37 : IVec S_ 1 := constantI S_ 1 1#1
  let main_v97 : IVec S_ 1 := (fun x v => Host.reduce IntOp.andi x v reducesTo_S16x1_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg23 main_arg24 main_arg25 main_v98 main_v101 main_c_39

def fn_part4 {F : FTy → Type} [FloatOps F] (main_arg14 : FVec F S32 .f32) (main_arg15 : FVec F S64x32 .f32) (main_arg16 : FVec F S32 .f32) (main_arg17 : FVec F S32x16 .f32) (main_arg18 : FVec F S16 .f32) (main_arg19 : FVec F S16x1 .f32) (main_arg20 : FVec F S1 .f32) (main_arg23 : FVec F S1700000 .f32) (main_arg24 : IVec S16384 32) (main_arg25 : IVec S16384 32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S64x32 .f32 := Host.absf main_arg15
  let main_cst_28 : FVec F S_ .f32 := constant S_ .f32 0x7F800000#32
  let main_v75 : FVec F S64x32 .f32 := broadcastInDim S64x32 ![] bcast_S_S64x32 main_cst_28
  let main_v76 : IVec S64x32 1 := cmpf .olt main_v74 main_v75
  let main_c_29 : IVec S_ 1 := constantI S_ 1 1#1
  let main_v77 : IVec S_ 1 := (fun x v => Host.reduce IntOp.andi x v reducesTo_S64x32_S_d0_1 h_S_) main_v76 main_c_29
  let main_v78 : IVec S_ 1 := andi main_v73 main_v77
  let main_v79 : FVec F S32 .f32 := Host.absf main_arg16
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x16 .f32 := Host.absf main_arg17
  let main_cst_32 : FVec F S_ .f32 := constant S_ .f32 0x7F800000#32
  fn_part5 (F := F) main_arg18 main_arg19 main_arg20 main_arg23 main_arg24 main_arg25 main_v83 main_v84 main_cst_32

def fn_part3 {F : FTy → Type} [FloatOps F] (main_arg11 : FVec F S128x64 .f32) (main_arg12 : FVec F S64 .f32) (main_arg13 : FVec F S64x32 .f32) (main_arg14 : FVec F S32 .f32) (main_arg15 : FVec F S64x32 .f32) (main_arg16 : FVec F S32 .f32) (main_arg17 : FVec F S32x16 .f32) (main_arg18 : FVec F S16 .f32) (main_arg19 : FVec F S16x1 .f32) (main_arg20 : FVec F S1 .f32) (main_arg23 : FVec F S1700000 .f32) (main_arg24 : IVec S16384 32) (main_arg25 : IVec S16384 32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg13
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg14 main_arg15 main_arg16 main_arg17 main_arg18 main_arg19 main_arg20 main_arg23 main_arg24 main_arg25 main_v63 main_v67

def fn_part2 {F : FTy → Type} [FloatOps F] (main_arg7 : FVec F S128x64 .f32) (main_arg8 : FVec F S64 .f32) (main_arg9 : FVec F S64x32 .f32) (main_arg10 : FVec F S32 .f32) (main_arg11 : FVec F S128x64 .f32) (main_arg12 : FVec F S64 .f32) (main_arg13 : FVec F S64x32 .f32) (main_arg14 : FVec F S32 .f32) (main_arg15 : FVec F S64x32 .f32) (main_arg16 : FVec F S32 .f32) (main_arg17 : FVec F S32x16 .f32) (main_arg18 : FVec F S16 .f32) (main_arg19 : FVec F S16x1 .f32) (main_arg20 : FVec F S1 .f32) (main_arg23 : FVec F S1700000 .f32) (main_arg24 : IVec S16384 32) (main_arg25 : IVec S16384 32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_arg14 main_arg15 main_arg16 main_arg17 main_arg18 main_arg19 main_arg20 main_arg23 main_arg24 main_arg25 main_v48 main_v49 main_v50

def fn_part1 {F : FTy → Type} [FloatOps F] (main_arg4 : FVec F S32 .f32) (main_arg5 : FVec F S32x32 .f32) (main_arg6 : FVec F S32 .f32) (main_arg7 : FVec F S128x64 .f32) (main_arg8 : FVec F S64 .f32) (main_arg9 : FVec F S64x32 .f32) (main_arg10 : FVec F S32 .f32) (main_arg11 : FVec F S128x64 .f32) (main_arg12 : FVec F S64 .f32) (main_arg13 : FVec F S64x32 .f32) (main_arg14 : FVec F S32 .f32) (main_arg15 : FVec F S64x32 .f32) (main_arg16 : FVec F S32 .f32) (main_arg17 : FVec F S32x16 .f32) (main_arg18 : FVec F S16 .f32) (main_arg19 : FVec F S16x1 .f32) (main_arg20 : FVec F S1 .f32) (main_arg23 : FVec F S1700000 .f32) (main_arg24 : IVec S16384 32) (main_arg25 : IVec S16384 32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg23 main_arg24 main_arg25 main_v33

def fn {F : FTy → Type} [FloatOps F] (main_arg0 : FVec F S100000x32 .f32) (main_arg1 : FVec F S32x32 .f32) (main_arg2 : FVec F S32 .f32) (main_arg3 : FVec F S32x32 .f32) (main_arg4 : FVec F S32 .f32) (main_arg5 : FVec F S32x32 .f32) (main_arg6 : FVec F S32 .f32) (main_arg7 : FVec F S128x64 .f32) (main_arg8 : FVec F S64 .f32) (main_arg9 : FVec F S64x32 .f32) (main_arg10 : FVec F S32 .f32) (main_arg11 : FVec F S128x64 .f32) (main_arg12 : FVec F S64 .f32) (main_arg13 : FVec F S64x32 .f32) (main_arg14 : FVec F S32 .f32) (main_arg15 : FVec F S64x32 .f32) (main_arg16 : FVec F S32 .f32) (main_arg17 : FVec F S32x16 .f32) (main_arg18 : FVec F S16 .f32) (main_arg19 : FVec F S16x1 .f32) (main_arg20 : FVec F S1 .f32) (main_arg21 : IVec S1700000 32) (main_arg22 : IVec S1700000 32) (main_arg23 : FVec F S1700000 .f32) (main_arg24 : IVec S16384 32) (main_arg25 : IVec S16384 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg23 main_arg24 main_arg25 main_v13 main_v16
-- ==== Kernel.lean ====
abbrev S100000x32 : Shape := ⟨2, ![100000, 32]⟩
abbrev S32x32 : Shape := ⟨2, ![32, 32]⟩
abbrev S32 : Shape := ⟨1, ![32]⟩
abbrev S128x64 : Shape := ⟨2, ![128, 64]⟩
abbrev S64 : Shape := ⟨1, ![64]⟩
abbrev S64x32 : Shape := ⟨2, ![64, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1700000 : Shape := ⟨1, ![1700000]⟩
abbrev S16384 : Shape := ⟨1, ![16384]⟩
abbrev S1700000x1 : Shape := ⟨2, ![1700000, 1]⟩
abbrev S_ : Shape := ⟨0, ![]⟩
abbrev S1700000x32 : Shape := ⟨2, ![1700000, 32]⟩
abbrev S1x32 : Shape := ⟨2, ![1, 32]⟩
abbrev S2000x32 : Shape := ⟨2, ![2000, 32]⟩
abbrev S100000x128 : Shape := ⟨2, ![100000, 128]⟩
abbrev S100000x1x128 : Shape := ⟨3, ![100000, 1, 128]⟩
abbrev S16384x1x128 : Shape := ⟨3, ![16384, 1, 128]⟩
abbrev S1x1x128 : Shape := ⟨3, ![1, 1, 128]⟩
abbrev S16384x128 : Shape := ⟨2, ![16384, 128]⟩
abbrev S1x64 : Shape := ⟨2, ![1, 64]⟩
abbrev S1x16 : Shape := ⟨2, ![1, 16]⟩
abbrev S1x1 : Shape := ⟨2, ![1, 1]⟩
abbrev S16384x1 : Shape := ⟨2, ![16384, 1]⟩
abbrev S2048x128 : Shape := ⟨2, ![2048, 128]⟩
abbrev S2048x1 : Shape := ⟨2, ![2048, 1]⟩
abbrev S2048x64 : Shape := ⟨2, ![2048, 64]⟩
abbrev S2048x32 : Shape := ⟨2, ![2048, 32]⟩
abbrev S2048x16 : Shape := ⟨2, ![2048, 16]⟩

abbrev nBuf : Space → Nat
  | .hbm => 92
  | .vmem => 46
  | .smem => 2
  | _ => 0

abbrev bufTy : (tb : Table) → Fin (tcTables nBuf tb) → BufTy
  | .hbm, ⟨0, _⟩ => ⟨S100000x32, .f32⟩
  | .hbm, ⟨1, _⟩ => ⟨S32x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S128x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S64x32, .f32⟩
  | .hbm, ⟨16, _⟩ => ⟨S32, .f32⟩
  | .hbm, ⟨17, _⟩ => ⟨S32x16, .f32⟩
  | .hbm, ⟨18, _⟩ => ⟨S16, .f32⟩
  | .hbm, ⟨19, _⟩ => ⟨S16x1, .f32⟩
  | .hbm, ⟨20, _⟩ => ⟨S1, .f32⟩
  | .hbm, ⟨21, _⟩ => ⟨S1700000, .i32⟩
  | .hbm, ⟨22, _⟩ => ⟨S1700000, .i32⟩
  | .hbm, ⟨23, _⟩ => ⟨S1700000, .f32⟩
  | .hbm, ⟨24, _⟩ => ⟨S1700000x1, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000x32, .f32⟩
  | .hbm, ⟨34, _⟩ => ⟨S1700000x32, .f32⟩
  | .hbm, ⟨35, _⟩ => ⟨S1700000x32, .f32⟩
  | .hbm, ⟨36, _⟩ => ⟨S_, .f32⟩
  | .hbm, ⟨37, _⟩ => ⟨S100000x32, .f32⟩
  | .hbm, ⟨38, _⟩ => ⟨S1700000x1, .i32⟩
  | .hbm, ⟨39, _⟩ => ⟨S100000x32, .f32⟩
  | .hbm, ⟨40, _⟩ => ⟨S1x32, .f32⟩
  | .hbm, ⟨41, _⟩ => ⟨S100000x32, .f32⟩
  | .hbm, ⟨42, _⟩ => ⟨S1700000x1, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x32, .f32⟩
  | .hbm, ⟨52, _⟩ => ⟨S1700000x32, .f32⟩
  | .hbm, ⟨53, _⟩ => ⟨S1700000x32, .f32⟩
  | .hbm, ⟨54, _⟩ => ⟨S_, .f32⟩
  | .hbm, ⟨55, _⟩ => ⟨S100000x32, .f32⟩
  | .hbm, ⟨56, _⟩ => ⟨S1700000x1, .i32⟩
  | .hbm, ⟨57, _⟩ => ⟨S100000x32, .f32⟩
  | .hbm, ⟨58, _⟩ => ⟨S1x32, .f32⟩
  | .hbm, ⟨59, _⟩ => ⟨S100000x32, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x32, .f32⟩
  | .hbm, ⟨70, _⟩ => ⟨S1700000x32, .f32⟩
  | .hbm, ⟨71, _⟩ => ⟨S1700000x32, .f32⟩
  | .hbm, ⟨72, _⟩ => ⟨S_, .f32⟩
  | .hbm, ⟨73, _⟩ => ⟨S100000x32, .f32⟩
  | .hbm, ⟨74, _⟩ => ⟨S1700000x1, .i32⟩
  | .hbm, ⟨75, _⟩ => ⟨S100000x32, .f32⟩
  | .hbm, ⟨76, _⟩ => ⟨S1x32, .f32⟩
  | .hbm, ⟨77, _⟩ => ⟨S100000x32, .f32⟩
  | .hbm, ⟨78, _⟩ => ⟨S100000x128, .f32⟩
  | .hbm, ⟨79, _⟩ => ⟨S100000x1x128, .f32⟩
  | .hbm, ⟨80, _⟩ => ⟨S16384x1x128, .f32⟩
  | .hbm, ⟨81, _⟩ => ⟨S16384x1x128, .f32⟩
  | .hbm, ⟨82, _⟩ => ⟨S16384x128, .f32⟩
  | .hbm, ⟨83, _⟩ => ⟨S16384x128, .f32⟩
  | .hbm, ⟨84, _⟩ => ⟨S1x64, .f32⟩
  | .hbm, ⟨85, _⟩ => ⟨S1x32, .f32⟩
  | .hbm, ⟨86, _⟩ => ⟨S1x64, .f32⟩
  | .hbm, ⟨87, _⟩ => ⟨S1x32, .f32⟩
  | .hbm, ⟨88, _⟩ => ⟨S1x32, .f32⟩
  | .hbm, ⟨89, _⟩ => ⟨S1x16, .f32⟩
  | .hbm, ⟨90, _⟩ => ⟨S1x1, .f32⟩
  | .hbm, ⟨91, _⟩ => ⟨S16384x1, .f32⟩
  | .local _ .vmem, ⟨0, _⟩ => ⟨S2000x32, .f32⟩
  | .local _ .vmem, ⟨1, _⟩ => ⟨S2000x32, .f32⟩
  | .local _ .vmem, ⟨2, _⟩ => ⟨S32x32, .f32⟩
  | .local _ .vmem, ⟨3, _⟩ => ⟨S1x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S32x32, .f32⟩
  | .local _ .vmem, ⟨9, _⟩ => ⟨S1x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S2000x32, .f32⟩
  | .local _ .vmem, ⟨14, _⟩ => ⟨S32x32, .f32⟩
  | .local _ .vmem, ⟨15, _⟩ => ⟨S1x32, .f32⟩
  | .local _ .vmem, ⟨16, _⟩ => ⟨S2000x32, .f32⟩
  | .local _ .vmem, ⟨17, _⟩ => ⟨S2000x32, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S128x64, .f32⟩
  | .local _ .vmem, ⟨31, _⟩ => ⟨S1x64, .f32⟩
  | .local _ .vmem, ⟨32, _⟩ => ⟨S64x32, .f32⟩
  | .local _ .vmem, ⟨33, _⟩ => ⟨S1x32, .f32⟩
  | .local _ .vmem, ⟨34, _⟩ => ⟨S128x64, .f32⟩
  | .local _ .vmem, ⟨35, _⟩ => ⟨S1x64, .f32⟩
  | .local _ .vmem, ⟨36, _⟩ => ⟨S64x32, .f32⟩
  | .local _ .vmem, ⟨37, _⟩ => ⟨S1x32, .f32⟩
  | .local _ .vmem, ⟨38, _⟩ => ⟨S64x32, .f32⟩
  | .local _ .vmem, ⟨39, _⟩ => ⟨S1x32, .f32⟩
  | .local _ .vmem, ⟨40, _⟩ => ⟨S32x16, .f32⟩
  | .local _ .vmem, ⟨41, _⟩ => ⟨S1x16, .f32⟩
  | .local _ .vmem, ⟨42, _⟩ => ⟨S16x1, .f32⟩
  | .local _ .vmem, ⟨43, _⟩ => ⟨S1x1, .f32⟩
  | .local _ .vmem, ⟨44, _⟩ => ⟨S2048x1, .f32⟩
  | .local _ .vmem, ⟨45, _⟩ => ⟨S2048x1, .f32⟩
  | .local _ .smem, ⟨0, _⟩ => ⟨S16384, .i32⟩
  | .local _ .smem, ⟨1, _⟩ => ⟨S16384, .i32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_1 : Ref sig .tc := ⟨.hbm, 43, rfl⟩
abbrev main_v16 : Ref sig .tc := ⟨.hbm, 44, rfl⟩
abbrev main_v17 : Ref sig .tc := ⟨.hbm, 45, rfl⟩
abbrev main_c_2 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_4 : Ref sig .tc := ⟨.hbm, 61, rfl⟩
abbrev main_v31 : Ref sig .tc := ⟨.hbm, 62, rfl⟩
abbrev main_v32 : Ref sig .tc := ⟨.hbm, 63, rfl⟩
abbrev main_c_5 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_6 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47_0 : Ref sig .tc := ⟨.hbm, 80, rfl⟩
abbrev main_v47_1 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_arg24 : Ref sig .tc := ⟨.smem, 0, rfl⟩
abbrev main_arg25 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg7_0 : Ref sig .tc := ⟨.vmem, 35, rfl⟩
abbrev cc4_stg8_0 : Ref sig .tc := ⟨.vmem, 36, rfl⟩
abbrev cc4_stg9_0 : Ref sig .tc := ⟨.vmem, 37, rfl⟩
abbrev cc4_stg10_0 : Ref sig .tc := ⟨.vmem, 38, rfl⟩
abbrev cc4_stg11_0 : Ref sig .tc := ⟨.vmem, 39, rfl⟩
abbrev cc4_stg12_0 : Ref sig .tc := ⟨.vmem, 40, rfl⟩
abbrev cc4_stg13_0 : Ref sig .tc := ⟨.vmem, 41, rfl⟩
abbrev cc4_stg14_0 : Ref sig .tc := ⟨.vmem, 42, rfl⟩
abbrev cc4_stg15_0 : Ref sig .tc := ⟨.vmem, 43, rfl⟩
abbrev cc4_stg16_0 : Ref sig .tc := ⟨.vmem, 44, rfl⟩
abbrev cc4_stg16_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem7_0 : DmaSem sig := 35
abbrev cc4_sem8_0 : DmaSem sig := 36
abbrev cc4_sem9_0 : DmaSem sig := 37
abbrev cc4_sem10_0 : DmaSem sig := 38
abbrev cc4_sem11_0 : DmaSem sig := 39
abbrev cc4_sem12_0 : DmaSem sig := 40
abbrev cc4_sem13_0 : DmaSem sig := 41
abbrev cc4_sem14_0 : DmaSem sig := 42
abbrev cc4_sem15_0 : DmaSem sig := 43
abbrev cc4_sem16_0 : DmaSem sig := 44
abbrev cc4_sem16_1 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16384], ![false]⟩

abbrev pre3 : Pipeline.Prefetch sig := ⟨2, ![main_arg24.idx, main_arg25.idx], fun | 0 => main_arg24.names | 1 => main_arg25.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S16384.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (k3_off1_inb : ∀ i : grid3.Coords, ∀ a, (k3_off1 i) a + S1.size a ≤ S16384.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64x32 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x32 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S64x32 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x32 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S32x16 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x16 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S16x1 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S1x1 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 2 → Memref sig .tc .vmem S2048x1 .f32 := fun | 0 => Memref.whole cc4_stg16_0 | 1 => Memref.whole cc4_stg16_1 | ⟨_ + 2, h⟩ => absurd h (Nat.not_lt.2 (Nat.le_add_left _ _))
abbrev sem4_16 : Fin 2 → DmaSem sig := fun | 0 => cc4_sem16_0 | 1 => cc4_sem16_1 | ⟨_ + 2, h⟩ => absurd h (Nat.not_lt.2 (Nat.le_add_left _ _))
abbrev reads4_16 : Fin grid4.rank → Bool := ![true]

class Facts₀ : Prop where
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  concatenates_S100000x32_S100000x32_S100000x32_S100000x32_S100000x128_d1 : Shape.Concatenates [S100000x32, S100000x32, S100000x32, S100000x32] S100000x128 1
  shapeCasts_S100000x128_S100000x1x128 : S100000x128.ShapeCasts S100000x1x128
  numel1_S1 : S1.numel = 1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S16384x1x128_S16384x128 : S16384x1x128.ShapeCasts S16384x128
  shapeCasts_S64_S1x64 : S64.ShapeCasts S1x64
  shapeCasts_S16_S1x16 : S16.ShapeCasts S1x16
  shapeCasts_S1_S1x1 : S1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x32_S64x32_0_0 : ∀ a, (![0, 0] : Fin 2 → Nat) a + S64x32.size a ≤ S64x32.size a
  h_S64x32 : 0 < S64x32.numel
  broadcasts_S1x32_S2048x32 : S1x32.Broadcasts S2048x32
  concatenates_S2048x32_S2048x32_S2048x64_d1 : Shape.Concatenates [S2048x32, S2048x32] S2048x64 1
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S2000x32_S32x32_S2000x32_1_0_0_1_n_n_wf : DotDims.WF S2000x32 S32x32 S2000x32 [1] [0] [0] [1] [] []
  dot_S2048x128_S128x64_S2048x64_1_0_0_1_n_n_wf : DotDims.WF S2048x128 S128x64 S2048x64 [1] [0] [0] [1] [] []
  dot_S2048x64_S64x32_S2048x32_1_0_0_1_n_n_wf : DotDims.WF S2048x64 S64x32 S2048x32 [1] [0] [0] [1] [] []
  dot_S2048x32_S32x16_S2048x16_1_0_0_1_n_n_wf : DotDims.WF S2048x32 S32x16 S2048x16 [1] [0] [0] [1] [] []
  dot_S2048x16_S16x1_S2048x1_1_0_0_1_n_n_wf : DotDims.WF S2048x16 S16x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S100000x32.size a
  hwx0_3 : ∀ i : grid0.Coords, EltTy.bits .f32 = 32 ∨ (Rect.block (s := S100000x32) S2000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S100000x32.size a
  hwx1_3 : ∀ i : grid1.Coords, EltTy.bits .f32 = 32 ∨ (Rect.block (s := S100000x32) S2000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x32.size a ≤ S100000x32.size a
  hwx2_3 : ∀ i : grid2.Coords, EltTy.bits .f32 = 32 ∨ (Rect.block (s := S100000x32) S2000x32.size (cc2_transform_3 i) (hinb2_3 i)).WholeWords (EltTy.packing .f32)
  hrank3 : 0 < grid3.rank
  k3_off1_inb : ∀ i : grid3.Coords, ∀ a, (k3_off1 i) a + S1.size a ≤ S16384.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ {F : FTy → Type} [FloatOps F] (pf : pre3.Contents (Elt F)) (i i' : grid3.Coords), (∀ a, reads3_1 a = true → i a = i' a) → cc3_transform_1 k3_off1_inb numel1_S1 pf i = cc3_transform_1 k3_off1_inb numel1_S1 pf i'
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x128.size a ≤ S16384x1x128.size a
  hwx3_2 : ∀ i : grid3.Coords, EltTy.bits .f32 = 32 ∨ (Rect.block (s := S16384x1x128) S1x1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x128.size a ≤ S16384x1x128.size a
  hwx3_3 : ∀ i : grid3.Coords, EltTy.bits .f32 = 32 ∨ (Rect.block (s := S16384x1x128) S1x1x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S16384x128.size a
  hwx4_0 : ∀ i : grid4.Coords, EltTy.bits .f32 = 32 ∨ (Rect.block (s := S16384x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S16384x128.size a
  hwx4_1 : ∀ i : grid4.Coords, EltTy.bits .f32 = 32 ∨ (Rect.block (s := S16384x128) S2048x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x32.size a ≤ S64x32.size a
  hwx4_4 : ∀ i : grid4.Coords, EltTy.bits .f32 = 32 ∨ (Rect.block (s := S64x32) S64x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x32.size a ≤ S1x32.size a
  hwx4_5 : ∀ i : grid4.Coords, EltTy.bits .f32 = 32 ∨ (Rect.block (s := S1x32) S1x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x64.size a ≤ S128x64.size a
  hwx4_6 : ∀ i : grid4.Coords, EltTy.bits .f32 = 32 ∨ (Rect.block (s := S128x64) S128x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64x32.size a ≤ S64x32.size a
  hwx4_8 : ∀ i : grid4.Coords, EltTy.bits .f32 = 32 ∨ (Rect.block (s := S64x32) S64x32.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x32.size a ≤ S1x32.size a
  hwx4_9 : ∀ i : grid4.Coords, EltTy.bits .f32 = 32 ∨ (Rect.block (s := S1x32) S1x32.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S64x32.size a ≤ S64x32.size a
  hwx4_10 : ∀ i : grid4.Coords, EltTy.bits .f32 = 32 ∨ (Rect.block (s := S64x32) S64x32.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x32.size a ≤ S1x32.size a
  hwx4_11 : ∀ i : grid4.Coords, EltTy.bits .f32 = 32 ∨ (Rect.block (s := S1x32) S1x32.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S32x16.size a ≤ S32x16.size a
  hwx4_12 : ∀ i : grid4.Coords, EltTy.bits .f32 = 32 ∨ (Rect.block (s := S32x16) S32x16.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x16.size a ≤ S1x16.size a
  hwx4_13 : ∀ i : grid4.Coords, EltTy.bits .f32 = 32 ∨ (Rect.block (s := S1x16) S1x16.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S16x1.size a ≤ S16x1.size a
  hwx4_14 : ∀ i : grid4.Coords, EltTy.bits .f32 = 32 ∨ (Rect.block (s := S16x1) S16x1.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S1x1.size a ≤ S1x1.size a
  hwx4_15 : ∀ i : grid4.Coords, EltTy.bits .f32 = 32 ∨ (Rect.block (s := S1x1) S1x1.size (cc4_transform_15 i) (hinb4_15 i)).WholeWords (EltTy.packing .f32)
  hstage4_16 : ∀ j, (stage4_16 j).IsWhole
  nbuf4_16 : grid4.bufCount reads4_16 false = 2
  hreads4_16 : ∀ i i' : grid4.Coords, (∀ a, reads4_16 a = true → i a = i' a) → cc4_transform_16 i = cc4_transform_16 i'
  hinb4_16 : ∀ (i : grid4.Coords) a, (cc4_transform_16 i a + 1) * S2048x1.size a ≤ S16384x1.size a
  hwx4_16 : ∀ i : grid4.Coords, EltTy.bits .f32 = 32 ∨ (Rect.block (s := S16384x1) S2048x1.size (cc4_transform_16 i) (hinb4_16 i)).WholeWords (EltTy.packing .f32)

variable [Facts₀]

def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf

abbrev win0_0 : Pipeline.Window sig grid0 :=
  Pipeline.Window.ofSpec (Memref.whole main_v12) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S2000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S2000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev spec3_0 : Pipeline.WinSpec sig grid3.rank :=
  Pipeline.WinSpec.ofSpec (Memref.whole main_v46) S1x1x128.size reads3_0 false false 2 stage3_0 sem3_0 nbuf3_0 hstage3_0

abbrev spec3_1 : Pipeline.WinSpec sig grid3.rank :=
  Pipeline.WinSpec.ofSpec (Memref.whole main_v46) S1x1x128.size reads3_1 false false 2 stage3_1 sem3_1 nbuf3_1 hstage3_1

abbrev spec3_2 : Pipeline.WinSpec sig grid3.rank :=
  Pipeline.WinSpec.ofSpec (Memref.whole main_v47_0) S1x1x128.size reads3_2 true false 2 stage3_2 sem3_2 nbuf3_2 hstage3_2

abbrev spec3_3 : Pipeline.WinSpec sig grid3.rank :=
  Pipeline.WinSpec.ofSpec (Memref.whole main_v47_1) S1x1x128.size reads3_3 true false 2 stage3_3 sem3_3 nbuf3_3 hstage3_3

abbrev spec3 : Fin 4 → Pipeline.WinSpec sig grid3.rank := fun | 0 => spec3_0 | 1 => spec3_1 | 2 => spec3_2 | 3 => spec3_3 | ⟨_ + 4, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | ⟨_ + 4, h⟩ => absurd h (Nat.not_lt.2 (Nat.le_add_left _ _))
abbrev ix3 (pf : pre3.Contents (Elt F)) : (w : Fin 4) → grid3.Coords → Fin (spec3 w).shape.rank → Nat := fun | 0 => cc3_transform_0 k3_off1_inb numel1_S1 pf | 1 => cc3_transform_1 k3_off1_inb numel1_S1 pf | 2 => cc3_transform_2 | 3 => cc3_transform_3 | ⟨_ + 4, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 pf | 2 => hreads3_2 | 3 => hreads3_3 | ⟨_ + 4, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x128.size a ≤ S100000x1x128.size a), EltTy.bits .f32 = 32 ∨ (Rect.block (s := S100000x1x128) S1x1x128.size (cc3_transform_0 k3_off1_inb numel1_S1 pf i) h).WholeWords (EltTy.packing .f32)) ∧
  (∀ i : grid3.Coords, ∃ h : (∀ a, (cc3_transform_1 k3_off1_inb numel1_S1 pf i a + 1) * S1x1x128.size a ≤ S100000x1x128.size a), EltTy.bits .f32 = 32 ∨ (Rect.block (s := S100000x1x128) S1x1x128.size (cc3_transform_1 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok.1 i).elim fun h _ => h a | 1 => fun i a => (hok.2 i).elim fun h _ => h a | 2 => hinb3_2 | 3 => hinb3_3 | ⟨_ + 4, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok.1 i).elim fun _ h => h | 1 => fun i => (hok.2 i).elim fun _ h => h | 2 => hwx3_2 | 3 => hwx3_3 | ⟨_ + 4, h⟩ => absurd h (Nat.not_lt.2 (Nat.le_add_left _ _))
abbrev win4_0 : Pipeline.Window sig grid4 :=
  Pipeline.Window.ofSpec (Memref.whole main_v48) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v50) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S64x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v51) S1x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg11) S128x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v52) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg13) S64x32.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v53) S1x32.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg15) S64x32.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v54) S1x32.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_arg17) S32x16.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v55) S1x16.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_arg19) S16x1.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v56) S1x1.size cc4_transform_15 reads4_15 false true 1 stage4_15 sem4_15
    hrank4 hreads4_15 hinb4_15 nbuf4_15 (Memref.isWhole_whole _) hwx4_15 hstage4_15

abbrev win4_16 : Pipeline.Window sig grid4 :=
  Pipeline.Window.ofSpec (Memref.whole main_v57) S2048x1.size cc4_transform_16 reads4_16 true false 2 stage4_16 sem4_16
    hrank4 hreads4_16 hinb4_16 nbuf4_16 (Memref.isWhole_whole _) hwx4_16 hstage4_16

abbrev win4 : Fin 17 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | ⟨_ + 17, h⟩ => absurd h (Nat.not_lt.2 (Nat.le_add_left _ _))
abbrev spec4 : Fin 17 → Pipeline.WinSpec sig grid4.rank := fun w => (win4 w).toWinSpec

class Facts : Prop extends Facts₀ where
  harr3 : ∀ w, (spec3 w).arr.IsWhole

variable [Facts]
-- ==== ReferenceIdeal.lean ====
abbrev S100000x32 : Shape := ⟨2, ![100000, 32]⟩
abbrev S32x32 : Shape := ⟨2, ![32, 32]⟩
abbrev S32 : Shape := ⟨1, ![32]⟩
abbrev S128x64 : Shape := ⟨2, ![128, 64]⟩
abbrev S64 : Shape := ⟨1, ![64]⟩
abbrev S64x32 : Shape := ⟨2, ![64, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1700000 : Shape := ⟨1, ![1700000]⟩
abbrev S16384 : Shape := ⟨1, ![16384]⟩
abbrev S1700000x1 : Shape := ⟨2, ![1700000, 1]⟩
abbrev S_ : Shape := ⟨0, ![]⟩
abbrev S1700000x32 : Shape := ⟨2, ![1700000, 32]⟩
abbrev S1x32 : Shape := ⟨2, ![1, 32]⟩
abbrev S100000x128 : Shape := ⟨2, ![100000, 128]⟩
abbrev S16384x1 : Shape := ⟨2, ![16384, 1]⟩
abbrev S16384x128 : Shape := ⟨2, ![16384, 128]⟩
abbrev S16384x64 : Shape := ⟨2, ![16384, 64]⟩
abbrev S1x64 : Shape := ⟨2, ![1, 64]⟩
abbrev S16384x32 : Shape := ⟨2, ![16384, 32]⟩
abbrev S16384x16 : Shape := ⟨2, ![16384, 16]⟩
abbrev S1x16 : Shape := ⟨2, ![1, 16]⟩
abbrev S1x1 : Shape := ⟨2, ![1, 1]⟩

abbrev nBuf : Space → Nat
  | .hbm => 169
  | .vmem => 0
  | .smem => 0
  | _ => 0

abbrev hbmTy0_0 (i : Nat) : BufTy := match i % 128 with
  | 0 => ⟨S100000x32, .f32⟩
  | 1 => ⟨S32x32, .f32⟩
  | 2 => ⟨S32, .f32⟩
  | 3 => ⟨S32x32, .f32⟩
  | 4 => ⟨S32, .f32⟩
  | 5 => ⟨S32x32, .f32⟩
  | 6 => ⟨S32, .f32⟩
  | 7 => ⟨S128x64, .f32⟩
  | 8 => ⟨S64, .f32⟩
  | 9 => ⟨S64x32, .f32⟩
  | 10 => ⟨S32, .f32⟩
  | 11 => ⟨S128x64, .f32⟩
  | 12 => ⟨S64, .f32⟩
  | 13 => ⟨S64x32, .f32⟩
  | 14 => ⟨S32, .f32⟩
  | 15 => ⟨S64x32, .f32⟩
  | 16 => ⟨S32, .f32⟩
  | 17 => ⟨S32x16, .f32⟩
  | 18 => ⟨S16, .f32⟩
  | 19 => ⟨S16x1, .f32⟩
  | 20 => ⟨S1, .f32⟩
  | 21 => ⟨S1700000, .i32⟩
  | 22 => ⟨S1700000, .i32⟩
  | 23 => ⟨S1700000, .f32⟩
  | 24 => ⟨S16384, .i32⟩
  | 25 => ⟨S16384, .i32⟩
  | 26 => ⟨S1700000x1, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000x32, .f32⟩
  | 36 => ⟨S1700000x32, .f32⟩
  | 37 => ⟨S1700000x32, .f32⟩
  | 38 => ⟨S_, .f32⟩
  | 39 => ⟨S100000x32, .f32⟩
  | 40 => ⟨S1700000x1, .i32⟩
  | 41 => ⟨S100000x32, .f32⟩
  | 42 => ⟨S100000x32, .f32⟩
  | 43 => ⟨S1x32, .f32⟩
  | 44 => ⟨S100000x32, .f32⟩
  | 45 => ⟨S100000x32, .f32⟩
  | 46 => ⟨S_, .f32⟩
  | 47 => ⟨S100000x32, .f32⟩
  | 48 => ⟨S100000x32, .f32⟩
  | 49 => ⟨S1700000x1, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x32, .f32⟩
  | 59 => ⟨S1700000x32, .f32⟩
  | 60 => ⟨S1700000x32, .f32⟩
  | 61 => ⟨S_, .f32⟩
  | 62 => ⟨S100000x32, .f32⟩
  | 63 => ⟨S1700000x1, .i32⟩
  | 64 => ⟨S100000x32, .f32⟩
  | 65 => ⟨S100000x32, .f32⟩
  | 66 => ⟨S1x32, .f32⟩
  | 67 => ⟨S100000x32, .f32⟩
  | 68 => ⟨S100000x32, .f32⟩
  | 69 => ⟨S_, .f32⟩
  | 70 => ⟨S100000x32, .f32⟩
  | 71 => ⟨S100000x32, .f32⟩
  | 72 => ⟨S1700000x1, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x32, .f32⟩
  | 82 => ⟨S1700000x32, .f32⟩
  | 83 => ⟨S1700000x32, .f32⟩
  | 84 => ⟨S_, .f32⟩
  | 85 => ⟨S100000x32, .f32⟩
  | 86 => ⟨S1700000x1, .i32⟩
  | 87 => ⟨S100000x32, .f32⟩
  | 88 => ⟨S100000x32, .f32⟩
  | 89 => ⟨S1x32, .f32⟩
  | 90 => ⟨S100000x32, .f32⟩
  | 91 => ⟨S100000x32, .f32⟩
  | 92 => ⟨S_, .f32⟩
  | 93 => ⟨S100000x32, .f32⟩
  | 94 => ⟨S100000x32, .f32⟩
  | 95 => ⟨S100000x128, .f32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S16384x128, .f32⟩
  | 105 => ⟨S_, .i32⟩
  | 106 => ⟨S16384, .i32⟩
  | 107 => ⟨S16384, .i1⟩
  | 108 => ⟨S_, .i32⟩
  | 109 => ⟨S16384, .i32⟩
  | 110 => ⟨S16384, .i32⟩
  | 111 => ⟨S16384, .i32⟩
  | 112 => ⟨S16384x1, .i32⟩
  | 113 => ⟨S16384x128, .f32⟩
  | 114 => ⟨S16384x64, .f32⟩
  | 115 => ⟨S1x64, .f32⟩
  | 116 => ⟨S16384x64, .f32⟩
  | 117 => ⟨S16384x64, .f32⟩
  | 118 => ⟨S_, .f32⟩
  | 119 => ⟨S16384x64, .f32⟩
  | 120 => ⟨S16384x64, .f32⟩
  | 121 => ⟨S16384x32, .f32⟩
  | 122 => ⟨S1x32, .f32⟩
  | 123 => ⟨S16384x32, .f32⟩
  | 124 => ⟨S16384x32, .f32⟩
  | 125 => ⟨S_, .f32⟩
  | 126 => ⟨S16384x32, .f32⟩
  | 127 => ⟨S16384x32, .f32⟩
  | _ => ⟨S100000x32, .f32⟩

abbrev hbmTy0_1 (i : Nat) : BufTy := match i % 128 with
  | 0 => ⟨S16384x64, .f32⟩
  | 1 => ⟨S1x64, .f32⟩
  | 2 => ⟨S16384x64, .f32⟩
  | 3 => ⟨S16384x64, .f32⟩
  | 4 => ⟨S_, .f32⟩
  | 5 => ⟨S16384x64, .f32⟩
  | 6 => ⟨S16384x64, .f32⟩
  | 7 => ⟨S16384x32, .f32⟩
  | 8 => ⟨S1x32, .f32⟩
  | 9 => ⟨S16384x32, .f32⟩
  | 10 => ⟨S16384x32, .f32⟩
  | 11 => ⟨S_, .f32⟩
  | 12 => ⟨S16384x32, .f32⟩
  | 13 => ⟨S16384x32, .f32⟩
  | 14 => ⟨S16384x64, .f32⟩
  | 15 => ⟨S16384x32, .f32⟩
  | 16 => ⟨S1x32, .f32⟩
  | 17 => ⟨S16384x32, .f32⟩
  | 18 => ⟨S16384x32, .f32⟩
  | 19 => ⟨S_, .f32⟩
  | 20 => ⟨S16384x32, .f32⟩
  | 21 => ⟨S16384x32, .f32⟩
  | 22 => ⟨S16384x16, .f32⟩
  | 23 => ⟨S1x16, .f32⟩
  | 24 => ⟨S16384x16, .f32⟩
  | 25 => ⟨S16384x16, .f32⟩
  | 26 => ⟨S_, .f32⟩
  | 27 => ⟨S16384x16, .f32⟩
  | 28 => ⟨S16384x16, .f32⟩
  | 29 => ⟨S16384x1, .f32⟩
  | 30 => ⟨S1x1, .f32⟩
  | 31 => ⟨S16384x1, .f32⟩
  | 32 => ⟨S16384x1, .f32⟩
  | 33 => ⟨S16384x1, .f32⟩
  | 34 => ⟨S16384x1, .f32⟩
  | 35 => ⟨S_, .f32⟩
  | 36 => ⟨S16384x1, .f32⟩
  | 37 => ⟨S16384x1, .f32⟩
  | 38 => ⟨S_, .f32⟩
  | 39 => ⟨S16384x1, .f32⟩
  | 40 => ⟨S16384x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_c : Ref sig .tc := ⟨.hbm, 27, rfl⟩
abbrev main_v1 : Ref sig .tc := ⟨.hbm, 28, rfl⟩
abbrev main_v2 : Ref sig .tc := ⟨.hbm, 29, rfl⟩
abbrev main_c_0 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_call0_cst : Ref sig .tc := ⟨.hbm, 46, rfl⟩
abbrev main_call0_v0 : Ref sig .tc := ⟨.hbm, 47, rfl⟩
abbrev main_v17 : Ref sig .tc := ⟨.hbm, 48, rfl⟩
abbrev main_v18 : Ref sig .tc := ⟨.hbm, 49, rfl⟩
abbrev main_c_1 : Ref sig .tc := ⟨.hbm, 50, rfl⟩
abbrev main_v19 : Ref sig .tc := ⟨.hbm, 51, rfl⟩
abbrev main_v20 : Ref sig .tc := ⟨.hbm, 52, rfl⟩
abbrev main_c_2 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_3 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_call1_cst : Ref sig .tc := ⟨.hbm, 69, rfl⟩
abbrev main_call1_v0 : Ref sig .tc := ⟨.hbm, 70, rfl⟩
abbrev main_v35 : Ref sig .tc := ⟨.hbm, 71, rfl⟩
abbrev main_v36 : Ref sig .tc := ⟨.hbm, 72, rfl⟩
abbrev main_c_4 : Ref sig .tc := ⟨.hbm, 73, rfl⟩
abbrev main_v37 : Ref sig .tc := ⟨.hbm, 74, rfl⟩
abbrev main_v38 : Ref sig .tc := ⟨.hbm, 75, rfl⟩
abbrev main_c_5 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_6 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_call2_cst : Ref sig .tc := ⟨.hbm, 92, rfl⟩
abbrev main_call2_v0 : Ref sig .tc := ⟨.hbm, 93, rfl⟩
abbrev main_v53 : Ref sig .tc := ⟨.hbm, 94, rfl⟩
abbrev main_v54 : Ref sig .tc := ⟨.hbm, 95, rfl⟩
abbrev main_c_7 : Ref sig .tc := ⟨.hbm, 96, rfl⟩
abbrev main_v55 : Ref sig .tc := ⟨.hbm, 97, rfl⟩
abbrev main_v56 : Ref sig .tc := ⟨.hbm, 98, rfl⟩
abbrev main_c_8 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_c_9 : Ref sig .tc := ⟨.hbm, 105, rfl⟩
abbrev main_v62 : Ref sig .tc := ⟨.hbm, 106, rfl⟩
abbrev main_v63 : Ref sig .tc := ⟨.hbm, 107, rfl⟩
abbrev main_c_10 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_call3_cst : Ref sig .tc := ⟨.hbm, 118, rfl⟩
abbrev main_call3_v0 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_call4_cst : Ref sig .tc := ⟨.hbm, 125, rfl⟩
abbrev main_call4_v0 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_call5_cst : Ref sig .tc := ⟨.hbm, 132, rfl⟩
abbrev main_call5_v0 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_call6_cst : Ref sig .tc := ⟨.hbm, 139, rfl⟩
abbrev main_call6_v0 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_call7_cst : Ref sig .tc := ⟨.hbm, 147, rfl⟩
abbrev main_call7_v0 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_call8_cst : Ref sig .tc := ⟨.hbm, 154, rfl⟩
abbrev main_call8_v0 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_11 : Ref sig .tc := ⟨.hbm, 163, rfl⟩
abbrev main_v106 : Ref sig .tc := ⟨.hbm, 164, rfl⟩
abbrev main_v107 : Ref sig .tc := ⟨.hbm, 165, rfl⟩
abbrev main_cst_12 : Ref sig .tc := ⟨.hbm, 166, rfl⟩
abbrev main_v108 : Ref sig .tc := ⟨.hbm, 167, rfl⟩
abbrev main_v109 : Ref sig .tc := ⟨.hbm, 168, rfl⟩

abbrev nD : Nat := 1
abbrev τ : Topo := Topo.v7x

variable {F : FTy → Type} [FloatOps F]

class Facts₀ : Prop where
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S100000x32_S100000x32_S100000x32_S100000x32_S100000x128_d1 : Shape.Concatenates [S100000x32, S100000x32, S100000x32, S100000x32] S100000x128 1
  bcast_S_S16384 : S_.BroadcastsInDim S16384 (![] : Fin 0 → Fin S16384.rank)
  bcast_S16384_S16384x1_0 : S16384.BroadcastsInDim S16384x1 (![0] : Fin 1 → Fin S16384x1.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x32_S100000x32_1_0_0_1_n_n_wf : DotDims.WF S100000x32 S32x32 S100000x32 [1] [0] [0] [1] [] []
  gather_S100000x128_S16384x1_S16384x128_1_0_n_n_0_1_1128_wf : GatherDims.WF S100000x128 S16384x1 S16384x128 [1] [0] [] [0] [] 1 ![1, 128]
  dot_S16384x128_S128x64_S16384x64_1_0_0_1_n_n_wf : DotDims.WF S16384x128 S128x64 S16384x64 [1] [0] [0] [1] [] []
  dot_S16384x64_S64x32_S16384x32_1_0_0_1_n_n_wf : DotDims.WF S16384x64 S64x32 S16384x32 [1] [0] [0] [1] [] []
  dot_S16384x32_S32x16_S16384x16_1_0_0_1_n_n_wf : DotDims.WF S16384x32 S32x16 S16384x16 [1] [0] [0] [1] [] []
  dot_S16384x16_S16x1_S16384x1_1_0_0_1_n_n_wf : DotDims.WF S16384x16 S16x1 S16384x1 [1] [0] [0] [1] [] []

variable [Facts₀]

def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x16_S16384x16_1_0_0_1_n_n : DotDims S16384x32 S32x16 S16384x16 where
  lhsContracting := [1]
  rhsContracting := [0]
  lhsNonContracting := [0]
  rhsNonContracting := [1]
  lhsBatch := []
  rhsBatch := []
  wf := dot_S16384x32_S32x16_S16384x16_1_0_0_1_n_n_wf
def dot_S16384x16_S16x1_S16384x1_1_0_0_1_n_n : DotDims S16384x16 S16x1 S16384x1 where
  lhsContracting := [1]
  rhsContracting := [0]
  lhsNonContracting := [0]
  rhsNonContracting := [1]
  lhsBatch := []
  rhsBatch := []
  wf := dot_S16384x16_S16x1_S16384x1_1_0_0_1_n_n_wf

class Facts : Prop extends Facts₀ where

variable [Facts]
-- ==== Proof.RunCondK.lean ====
import proofs.«401547_j83227876262380_2_alg».proof.Proof.RegionsK

set_option maxRecDepth 3248

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen Cert.Kernel.GenP

variable {F : FTy → Type} [FloatOps F]
variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 5) → (pcfgs (F := F) p).Adm)
    (pdats : (p : Fin 5) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c)) :
    θ_run defs (onTc (τ := τ) (main (F := F))) ⟨m, fun _ => 0, ρ⟩ (fun r => ∀ c : Dev nD,
      ∀ b ∈ Pipeline.ucRefs τ sig, r.2.mem ((c : Thread nD τ).1, b) = V10 m outs c b) := by
  refine Pipeline.θ_run_regions_kit_dev (pcfgs (F := F)) a pdats ι (cellOf_inj a) EP defs₀ 𝒱₀ L lv m ρ main
    (segs m outs 𝒱₀ L lv E ι a pdats R0 R1 R2 R3 R4)
    (fun c Q => by
      rewrite [main_chain c, Seg.run_eq_chain,
        show (segs m outs 𝒱₀ L lv E ι a pdats R0 R1 R2 R3 R4 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, hpre0 c, hpost0 c, hpre1 c, hpost1 c, hpre2 c, hpost2 c, hpre3 c, hpost3 c, hpre4 c, (hpost4 c).trans (sep_mono .rfl (hE5 c))⟩)
    (hinit := ?_) (QY := fun c s => ∀ b ∈ Pipeline.ucRefs τ sig, s.mem ((c : Thread nD τ).1, b) = V10 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact h
    · iexact HSI

end Cert.Kernel.Hand

end
-- ==== Proof.Reg0K.lean ====
import proofs.«401547_j83227876262380_2_alg».proof.Proof.LaunchK
import proofs.«401547_j83227876262380_2_alg».proof.Proof.Gen.Kernel.Skeleton
import proofs.«401547_j83227876262380_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x32 := Rect.unit (s := S2000x32) ![0, 0] S2000x32.size inb_S2000x32_S2000x32_0_0
abbrev r0_1 : Rect S32x32 := Rect.unit (s := S32x32) ![0, 0] S32x32.size inb_S32x32_S32x32_0_0
abbrev r0_2 : Rect S1x32 := Rect.unit (s := S1x32) ![0, 0] S1x32.size inb_S1x32_S1x32_0_0

def out0_3 (x0 : Vec F S2000x32 .f32) (x1 : Vec F S32x32 .f32) (x2 : Vec F S1x32 .f32) : Vec F S2000x32 .f32 :=
  View.canon [⟨r0_0, k0_pay1 (View.ld x0 r0_0) (View.ld x1 r0_1) (View.ld x2 r0_2)⟩]

set_option maxHeartbeats 1000000 in
theorem sound_kernel0 (c : Dev nD) (i : grid0.Coords) (a1 h1 a2 h2 a3 h3 a4 h4) (x0 x1 x2) (K : PUnit → sProp 𝕄) :
    iprop(owns c.tc a1 fullShare x0 ∗ owns c.tc a2 fullShare x1 ∗ owns c.tc a3 fullShare x2 ∗ (∃ d, owns c.tc a4 fullShare d)
        ∗ (iprop(owns c.tc a1 fullShare x0 ∗ owns c.tc a2 fullShare x1 ∗ owns c.tc a3 fullShare x2 ∗ owns c.tc a4 fullShare (out0_3 x0 x1 x2)) -∗ K ⟨⟩))
      ⊢ wp frame (wpE (defs₀ (F := F)) Variants.none c none) Set.univ (cc0__gcn_layer_kernel i a1 h1 a2 h2 a3 h3 a4 h4) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe H0 %hf0
  isplitl [H1]; · iexists f1; iframe H1 %hf1
  isplitl [H2]; · iexists f2; iframe H2 %hf2
  iexists _; iframe H3
  ipureintro; subst hf0 hf1 hf2
  exact View.read_writes_eq_canon _ _ _ (View.cover_of_tiled _ S2000x32.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) (iblk0 V c 2 t) := by dsimp only [dat0]

theorem before0_in (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) := by
  refine ⟨?_, ?_, ?_⟩ <;> intro d <;> exact (dat0 V c).before_in_eq_fetched _ rfl (fun _ => rfl) (fun _ _ _ => rfl) (fun _ => rfl) t d

theorem sound_body0 (c : Dev nD) (t : Fin cfg0.N) :
    iprop((dat0 V c).Φ t.castSucc ∗ (dat0 V c).owesAt () t.castSucc
      ∗ (∃ d, owns c.tc (st0_0 t) fullShare ((dat0 V c).before 0 t d))
      ∗ (∃ d, owns c.tc (st0_1 t) fullShare ((dat0 V c).before 1 t d))
      ∗ (∃ d, owns c.tc (st0_2 t) fullShare ((dat0 V c).before 2 t d))
      ∗ (∃ d, owns c.tc (st0_3 t) fullShare ((dat0 V c).before 3 t d)))
    ⊢ wp frame (wpE (defs₀ (F := F)) Variants.none c none) Set.univ (bodyAt0 t) fun _ =>
      iprop((dat0 V c).Φ t.castSucc ∗ (dat0 V c).owesAt () t.castSucc
        ∗ owns c.tc (st0_0 t) fullShare ((dat0 V c).after 0 t)
        ∗ owns c.tc (st0_1 t) fullShare ((dat0 V c).after 1 t)
        ∗ owns c.tc (st0_2 t) fullShare ((dat0 V c).after 2 t)
        ∗ owns c.tc (st0_3 t) fullShare ((dat0 V c).after 3 t)) := by
  simp only [(before0_in V c t).1, (before0_in V c t).2.1, (before0_in V c t).2.2]
  dsimp only [dat0]
  iintro ⟨HΦ, Ho, ⟨%d0, H0⟩, ⟨%d1, H1⟩, ⟨%d2, H2⟩, ⟨%d3, H3⟩⟩
  iapply (sound_kernel0 c _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.Reg1K.lean ====
import proofs.«401547_j83227876262380_2_alg».proof.Proof.LaunchK
import proofs.«401547_j83227876262380_2_alg».proof.Proof.Gen.Kernel.Skeleton
import proofs.«401547_j83227876262380_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x32 := Rect.unit (s := S2000x32) ![0, 0] S2000x32.size inb_S2000x32_S2000x32_0_0
abbrev r1_1 : Rect S32x32 := Rect.unit (s := S32x32) ![0, 0] S32x32.size inb_S32x32_S32x32_0_0
abbrev r1_2 : Rect S1x32 := Rect.unit (s := S1x32) ![0, 0] S1x32.size inb_S1x32_S1x32_0_0

def out1_3 (x0 : Vec F S2000x32 .f32) (x1 : Vec F S32x32 .f32) (x2 : Vec F S1x32 .f32) : Vec F S2000x32 .f32 :=
  View.canon [⟨r1_0, k1_pay1 (View.ld x0 r1_0) (View.ld x1 r1_1) (View.ld x2 r1_2)⟩]

set_option maxHeartbeats 1000000 in
theorem sound_kernel1 (c : Dev nD) (i : grid1.Coords) (a1 h1 a2 h2 a3 h3 a4 h4) (x0 x1 x2) (K : PUnit → sProp 𝕄) :
    iprop(owns c.tc a1 fullShare x0 ∗ owns c.tc a2 fullShare x1 ∗ owns c.tc a3 fullShare x2 ∗ (∃ d, owns c.tc a4 fullShare d)
        ∗ (iprop(owns c.tc a1 fullShare x0 ∗ owns c.tc a2 fullShare x1 ∗ owns c.tc a3 fullShare x2 ∗ owns c.tc a4 fullShare (out1_3 x0 x1 x2)) -∗ K ⟨⟩))
      ⊢ wp frame (wpE (defs₀ (F := F)) Variants.none c none) Set.univ (cc1__gcn_layer_kernel i a1 h1 a2 h2 a3 h3 a4 h4) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe H0 %hf0
  isplitl [H1]; · iexists f1; iframe H1 %hf1
  isplitl [H2]; · iexists f2; iframe H2 %hf2
  iexists _; iframe H3
  ipureintro; subst hf0 hf1 hf2
  exact View.read_writes_eq_canon _ _ _ (View.cover_of_tiled _ S2000x32.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = out1_3 (iblk1 V c 0 t) (iblk1 V c 1 t) (iblk1 V c 2 t) := by dsimp only [dat1]

theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) := by
  refine ⟨?_, ?_, ?_⟩ <;> intro d <;> exact (dat1 V c).before_in_eq_fetched _ rfl (fun _ => rfl) (fun _ _ _ => rfl) (fun _ => rfl) t d

theorem sound_body1 (c : Dev nD) (t : Fin cfg1.N) :
    iprop((dat1 V c).Φ t.castSucc ∗ (dat1 V c).owesAt () t.castSucc
      ∗ (∃ d, owns c.tc (st1_0 t) fullShare ((dat1 V c).before 0 t d))
      ∗ (∃ d, owns c.tc (st1_1 t) fullShare ((dat1 V c).before 1 t d))
      ∗ (∃ d, owns c.tc (st1_2 t) fullShare ((dat1 V c).before 2 t d))
      ∗ (∃ d, owns c.tc (st1_3 t) fullShare ((dat1 V c).before 3 t d)))
    ⊢ wp frame (wpE (defs₀ (F := F)) Variants.none c none) Set.univ (bodyAt1 t) fun _ =>
      iprop((dat1 V c).Φ t.castSucc ∗ (dat1 V c).owesAt () t.castSucc
        ∗ owns c.tc (st1_0 t) fullShare ((dat1 V c).after 0 t)
        ∗ owns c.tc (st1_1 t) fullShare ((dat1 V c).after 1 t)
        ∗ owns c.tc (st1_2 t) fullShare ((dat1 V c).after 2 t)
        ∗ owns c.tc (st1_3 t) fullShare ((dat1 V c).after 3 t)) := by
  simp only [(before1_in V c t).1, (before1_in V c t).2.1, (before1_in V c t).2.2]
  dsimp only [dat1]
  iintro ⟨HΦ, Ho, ⟨%d0, H0⟩, ⟨%d1, H1⟩, ⟨%d2, H2⟩, ⟨%d3, H3⟩⟩
  iapply (sound_kernel1 c _ _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.Reg2K.lean ====
import proofs.«401547_j83227876262380_2_alg».proof.Proof.LaunchK
import proofs.«401547_j83227876262380_2_alg».proof.Proof.Gen.Kernel.Skeleton
import proofs.«401547_j83227876262380_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x32 := Rect.unit (s := S2000x32) ![0, 0] S2000x32.size inb_S2000x32_S2000x32_0_0
abbrev r2_1 : Rect S32x32 := Rect.unit (s := S32x32) ![0, 0] S32x32.size inb_S32x32_S32x32_0_0
abbrev r2_2 : Rect S1x32 := Rect.unit (s := S1x32) ![0, 0] S1x32.size inb_S1x32_S1x32_0_0

def out2_3 (x0 : Vec F S2000x32 .f32) (x1 : Vec F S32x32 .f32) (x2 : Vec F S1x32 .f32) : Vec F S2000x32 .f32 :=
  View.canon [⟨r2_0, k2_pay1 (View.ld x0 r2_0) (View.ld x1 r2_1) (View.ld x2 r2_2)⟩]

set_option maxHeartbeats 1000000 in
theorem sound_kernel2 (c : Dev nD) (i : grid2.Coords) (a1 h1 a2 h2 a3 h3 a4 h4) (x0 x1 x2) (K : PUnit → sProp 𝕄) :
    iprop(owns c.tc a1 fullShare x0 ∗ owns c.tc a2 fullShare x1 ∗ owns c.tc a3 fullShare x2 ∗ (∃ d, owns c.tc a4 fullShare d)
        ∗ (iprop(owns c.tc a1 fullShare x0 ∗ owns c.tc a2 fullShare x1 ∗ owns c.tc a3 fullShare x2 ∗ owns c.tc a4 fullShare (out2_3 x0 x1 x2)) -∗ K ⟨⟩))
      ⊢ wp frame (wpE (defs₀ (F := F)) Variants.none c none) Set.univ (cc2__gcn_layer_kernel i a1 h1 a2 h2 a3 h3 a4 h4) K := by
  simp only [cc2__gcn_layer_kernel_eq_skeleton]; unfold cc2__gcn_layer_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe H0 %hf0
  isplitl [H1]; · iexists f1; iframe H1 %hf1
  isplitl [H2]; · iexists f2; iframe H2 %hf2
  iexists _; iframe H3
  ipureintro; subst hf0 hf1 hf2
  exact View.read_writes_eq_canon _ _ _ (View.cover_of_tiled _ S2000x32.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = out2_3 (iblk2 V c 0 t) (iblk2 V c 1 t) (iblk2 V c 2 t) := by dsimp only [dat2]

theorem before2_in (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) := by
  refine ⟨?_, ?_, ?_⟩ <;> intro d <;> exact (dat2 V c).before_in_eq_fetched _ rfl (fun _ => rfl) (fun _ _ _ => rfl) (fun _ => rfl) t d

theorem sound_body2 (c : Dev nD) (t : Fin cfg2.N) :
    iprop((dat2 V c).Φ t.castSucc ∗ (dat2 V c).owesAt () t.castSucc
      ∗ (∃ d, owns c.tc (st2_0 t) fullShare ((dat2 V c).before 0 t d))
      ∗ (∃ d, owns c.tc (st2_1 t) fullShare ((dat2 V c).before 1 t d))
      ∗ (∃ d, owns c.tc (st2_2 t) fullShare ((dat2 V c).before 2 t d))
      ∗ (∃ d, owns c.tc (st2_3 t) fullShare ((dat2 V c).before 3 t d)))
    ⊢ wp frame (wpE (defs₀ (F := F)) Variants.none c none) Set.univ (bodyAt2 t) fun _ =>
      iprop((dat2 V c).Φ t.castSucc ∗ (dat2 V c).owesAt () t.castSucc
        ∗ owns c.tc (st2_0 t) fullShare ((dat2 V c).after 0 t)
        ∗ owns c.tc (st2_1 t) fullShare ((dat2 V c).after 1 t)
        ∗ owns c.tc (st2_2 t) fullShare ((dat2 V c).after 2 t)
        ∗ owns c.tc (st2_3 t) fullShare ((dat2 V c).after 3 t)) := by
  simp only [(before2_in V c t).1, (before2_in V c t).2.1, (before2_in V c t).2.2]
  dsimp only [dat2]
  iintro ⟨HΦ, Ho, ⟨%d0, H0⟩, ⟨%d1, H1⟩, ⟨%d2, H2⟩, ⟨%d3, H3⟩⟩
  iapply (sound_kernel2 c _ _ _ _ _ _ _ _ _ (iblk2 V c 0 t) (iblk2 V c 1 t) (iblk2 V c 2 t) _)
  iframe H0 H1 H2
  isplitl [H3]; · iexists _; iexact H3
  iintro ⟨H0, H1, H2, H3⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.Reg3K.lean ====

import proofs.«401547_j83227876262380_2_alg».proof.Proof.LaunchK
import proofs.«401547_j83227876262380_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a3 : (pcfg3 (F := F)).Adm)
variable (V : (c : Dev nD) → (b : Ref sig .tc) → Buf (Elt F) ((c : Thread nD τ).loc b))

abbrev stg3 (a : (pcfg3 (F := F)).Adm) (t : Fin (cfg3 a).N) (w : Fin (cfg3 a).W) := ((cfg3 a).win w).stage ((cfg3 a).slots t w)

abbrev bodyAt3 (a : (pcfg3 (F := F)).Adm) (t : Fin (cfg3 a).N) : Prog (TpuEff nD τ sig (Elt F) Λ₀ .tc) PUnit :=
  cc3__gather_kernel (grid3.coords t) (Memref.whole main_arg24) (Memref.isWhole_whole _) (Memref.whole main_arg25) (Memref.isWhole_whole _)
    (stg3 a t 0) (stage_whole3 0 _) (stg3 a t 1) (stage_whole3 1 _) (stg3 a t 2) (stage_whole3 2 _) (stg3 a t 3) (stage_whole3 3 _)

def iblk3 (c : Dev nD) (w : Fin (cfg3 a3).W) (t : Fin (cfg3 a3).N) : (((cfg3 a3).win w).xblock ((cfg3 a3).grid.coords t)).Idx → Elt F ((cfg3 a3).win w).elt :=
  (((cfg3 a3).win w).blk t).view.read (Elt F) (V c (Pipeline.arrRef spec3 w))

abbrev r3_0 : Rect S1x1x128 := Rect.unit (s := S1x1x128) ![0, 0, 0] S1x1x128.size inb_S1x1x128_S1x1x128_0_0_0

def out3_2 (x0 : Vec F S1x1x128 .f32) : Vec F S1x1x128 .f32 :=
  View.canon [⟨r3_0, k3_pay1 (View.ld x0 r3_0)⟩]

def out3_3 (x1 : Vec F S1x1x128 .f32) : Vec F S1x1x128 .f32 :=
  View.canon [⟨r3_0, k3_pay2 (View.ld x1 r3_0)⟩]

abbrev tabs3 (c : Dev nD) : sProp 𝕄 :=
  Pipeline.prefHeld (Ix := Unit) (Name := ℕ) (U := UR sig nD τ) (Lvl := ℕ) pre3 c (fun _ => fullShare) a3.1

def dat3 (c : Dev nD) : Dat τ (Elt F) Unit ℕ (UR sig nD τ) ℕ (cfg3 a3) c where
  A w := V c (Pipeline.arrRef spec3 w)
  after w t := match w with
    | ⟨0, _⟩ => iblk3 a3 V c 0 t
    | ⟨1, _⟩ => iblk3 a3 V c 1 t
    | ⟨2, _⟩ => out3_2 (iblk3 a3 V c 0 t)
    | ⟨3, _⟩ => out3_3 (iblk3 a3 V c 1 t)
  Φ _ := iprop(Pipeline.ΦA spec3 c ∗ tabs3 a3 c)
  q w := match w with
    | ⟨0, _⟩ => fullShare.left
    | ⟨1, _⟩ => fullShare.right
    | ⟨2, _⟩ => fullShare
    | ⟨3, _⟩ => fullShare
  owed _ := 0

theorem A_eq3 (c : Dev nD) (w : Fin (cfg3 a3).W) : (dat3 a3 V c).A w = V c (Pipeline.arrRef spec3 w) := by
  dsimp only [dat3]

theorem after3_0 (c : Dev nD) (t : Fin (cfg3 a3).N) : (dat3 a3 V c).after 0 t = iblk3 a3 V c 0 t := by dsimp only [dat3]; try rfl
theorem after3_1 (c : Dev nD) (t : Fin (cfg3 a3).N) : (dat3 a3 V c).after 1 t = iblk3 a3 V c 1 t := by dsimp only [dat3]; try rfl
theorem after3_2 (c : Dev nD) (t : Fin (cfg3 a3).N) : (dat3 a3 V c).after 2 t = out3_2 (iblk3 a3 V c 0 t) := by dsimp only [dat3]; try rfl
theorem after3_3 (c : Dev nD) (t : Fin (cfg3 a3).N) : (dat3 a3 V c).after 3 t = out3_3 (iblk3 a3 V c 1 t) := by dsimp only [dat3]; try rfl

theorem Phi3_in (c : Dev nD) :
    iprop((∃ r, prngReg c r) ∗ Pipeline.prefHeld (Ix := Unit) (Name := ℕ) (U := UR sig nD τ) (Lvl := ℕ) pre3 c (fun _ => fullShare) a3.1
        ∗ Pipeline.scopedRest (Ix := Unit) (Name := ℕ) (U := UR sig nD τ) (Lvl := ℕ) (Val := Elt F) spec3 c)
      ⊢ (dat3 a3 V c).Φ 0 := by
  dsimp only [dat3, Pipeline.ΦA]
  iintro ⟨Hp, Ht, Hr⟩
  iframe

theorem Phi3_out (c : Dev nD) :
    (dat3 a3 V c).Φ (Fin.last (cfg3 a3).N)
      ⊢ iprop(((∃ r, prngReg c r) ∗ Pipeline.prefHeld (Ix := Unit) (Name := ℕ) (U := UR sig nD τ) (Lvl := ℕ) pre3 c (fun _ => fullShare) a3.1)
        ∗ Pipeline.ownSems0 (fun k : PEmpty => k.elim) c
        ∗ Pipeline.scopedRest (Ix := Unit) (Name := ℕ) (U := UR sig nD τ) (Lvl := ℕ) (Val := Elt F) spec3 c) := by
  rw [Pipeline.ownSems0_none]; dsimp only [dat3, Pipeline.ΦA]
  iintro ⟨⟨Hr, Hp⟩, Ht⟩
  iframe <;> iempintro

theorem before3 (c : Dev nD) (w : Fin (cfg3 a3).W) (hw : w = 0 ∨ w = 1) (t : Fin (cfg3 a3).N) (d) : (dat3 a3 V c).before w t d = iblk3 a3 V c w t := by
  rcases hw with rfl | rfl <;>
  exact ((dat3 a3 V c).before_in_eq_fetched _ rfl (fun _ => rfl) (fun _ _ _ => rfl) (fun t => by simp only [after3_0, after3_1]; unfold Dat.blockOf iblk3; rw [A_eq3]; try rfl) t d).trans
    (by unfold Dat.fetched Dat.blockOf iblk3; rw [A_eq3]; try rfl)

abbrev in3 (c : Dev nD) (t : Fin (cfg3 a3).N) (w : Fin (cfg3 a3).W) : sProp 𝕄 :=
  iprop(∃ d, owns (c : Thread nD τ) (stg3 a3 t w) fullShare ((dat3 a3 V c).before w t d))

abbrev out3 (c : Dev nD) (t : Fin (cfg3 a3).N) (w : Fin (cfg3 a3).W) : sProp 𝕄 :=
  owns (c : Thread nD τ) (stg3 a3 t w) fullShare ((dat3 a3 V c).after w t)

theorem sound_body3 (c : Dev nD) (t : Fin (cfg3 a3).N) :
    iprop((dat3 a3 V c).Φ t.castSucc ∗ (dat3 a3 V c).owesAt () t.castSucc ∗ in3 a3 V c t 0 ∗ in3 a3 V c t 1 ∗ in3 a3 V c t 2 ∗ in3 a3 V c t 3)
      ⊢ wp frame (wpE (defs₀ (F := F)) Variants.none c none) Set.univ (bodyAt3 a3 t) fun _ =>
        iprop((dat3 a3 V c).Φ t.succ ∗ (dat3 a3 V c).owesAt () t.succ ∗ out3 a3 V c t 0 ∗ out3 a3 V c t 1 ∗ out3 a3 V c t 2 ∗ out3 a3 V c t 3) := by
  simp only [in3, out3, bodyAt3, before3 a3 V c 0 (.inl rfl), before3 a3 V c 1 (.inr rfl), after3_0, after3_1, after3_2, after3_3, cc3__gather_kernel_eq_skeleton]
  unfold cc3__gather_kernel_skel owns
  rw [show (dat3 a3 V c).Φ t.succ = (dat3 a3 V c).Φ t.castSucc from rfl,
    show (dat3 a3 V c).owesAt () t.succ = (dat3 a3 V c).owesAt () t.castSucc from rfl]
  iintro ⟨HΦ, Ho, ⟨%d0, %f0, %hf0, H0⟩, ⟨%d1, %f1, %hf1, H1⟩, ⟨%d2, %f2, -, H2⟩, ⟨%d3, %f3, -, H3⟩⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists _; isplitr
    swap; · iexact H2
    ipureintro
    exact (View.read_writes_eq_canon _ _ _ (View.cover_of_tiled _ S1x1x128.size (by rfl))).trans (congrArg out3_2 hf0)
  iexists _; isplitr
  swap; · iexact H3
  ipureintro
  exact (View.read_writes_eq_canon _ _ _ (View.cover_of_tiled _ S1x1x128.size (by rfl))).trans (congrArg out3_3 hf1)

theorem body_obligation3 (c : Dev nD) : BodyObligation (dat3 (F := F) a3 V c) (defs₀ (F := F)) Variants.none () Set.univ := fun t => by
  rw [bigSep_W3, bigSep_W3]
  exact sound_body3 a3 V c t

end Cert.Kernel.Hand

end
-- ==== Proof.Reg4K.lean ====
import proofs.«401547_j83227876262380_2_alg».proof.Proof.LaunchK
import proofs.«401547_j83227876262380_2_alg».proof.Proof.RegionsK
import proofs.«401547_j83227876262380_2_alg».proof.Proof.Gen.Kernel.Skeleton
import proofs.«401547_j83227876262380_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2048x128 := Rect.unit (s := S2048x128) ![0, 0] S2048x128.size inb_S2048x128_S2048x128_0_0
abbrev r4_1 : Rect S128x64 := Rect.unit (s := S128x64) ![0, 0] S128x64.size inb_S128x64_S128x64_0_0
abbrev r4_2 : Rect S1x64 := Rect.unit (s := S1x64) ![0, 0] S1x64.size inb_S1x64_S1x64_0_0
abbrev r4_3 : Rect S64x32 := Rect.unit (s := S64x32) ![0, 0] S64x32.size inb_S64x32_S64x32_0_0
abbrev r4_4 : Rect S1x32 := Rect.unit (s := S1x32) ![0, 0] S1x32.size inb_S1x32_S1x32_0_0
abbrev r4_5 : Rect S32x16 := Rect.unit (s := S32x16) ![0, 0] S32x16.size inb_S32x16_S32x16_0_0
abbrev r4_6 : Rect S1x16 := Rect.unit (s := S1x16) ![0, 0] S1x16.size inb_S1x16_S1x16_0_0
abbrev r4_7 : Rect S16x1 := Rect.unit (s := S16x1) ![0, 0] S16x1.size inb_S16x1_S16x1_0_0
abbrev r4_8 : Rect S1x1 := Rect.unit (s := S1x1) ![0, 0] S1x1.size inb_S1x1_S1x1_0_0
abbrev r4_9 : Rect S2048x1 := Rect.unit (s := S2048x1) ![0, 0] S2048x1.size inb_S2048x1_S2048x1_0_0

/-- The output after the body: its one whole store, of the payload computed from the sixteen blocks read. -/
def out4_16 (x0 : Vec F S2048x128 .f32) (x1 : Vec F S2048x128 .f32) (x2 : Vec F S128x64 .f32) (x3 : Vec F S1x64 .f32) (x4 : Vec F S64x32 .f32) (x5 : Vec F S1x32 .f32) (x6 : Vec F S128x64 .f32) (x7 : Vec F S1x64 .f32) (x8 : Vec F S64x32 .f32) (x9 : Vec F S1x32 .f32) (x10 : Vec F S64x32 .f32) (x11 : Vec F S1x32 .f32) (x12 : Vec F S32x16 .f32) (x13 : Vec F S1x16 .f32) (x14 : Vec F S16x1 .f32) (x15 : Vec F S1x1 .f32) : Vec F S2048x1 .f32 :=
  View.canon [⟨r4_9, k4_pay3 (k4_pay1 (View.ld x0 r4_0) (View.ld x2 r4_1) (View.ld x3 r4_2) (View.ld x4 r4_3) (View.ld x5 r4_4)) (k4_pay2 (View.ld x1 r4_0) (View.ld x6 r4_1) (View.ld x7 r4_2)) (View.ld x8 r4_3) (View.ld x9 r4_4) (View.ld x10 r4_3) (View.ld x11 r4_4) (View.ld x12 r4_5) (View.ld x13 r4_6) (View.ld x14 r4_7) (View.ld x15 r4_8)⟩]

set_option maxHeartbeats 1000000 in
/-- The body reads its sixteen inputs whole and writes its output once, whole: every input is left as found. -/
theorem sound_kernel4 (c : Dev nD) (E : Set ℕ) (i : grid4.Coords) (arg1 : Memref sig .tc .vmem S2048x128 .f32) (harg1 : arg1.IsWhole) (arg2 : Memref sig .tc .vmem S2048x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x32 .f32) (harg9 : arg9.IsWhole) (arg10 : Memref sig .tc .vmem S1x32 .f32) (harg10 : arg10.IsWhole) (arg11 : Memref sig .tc .vmem S64x32 .f32) (harg11 : arg11.IsWhole) (arg12 : Memref sig .tc .vmem S1x32 .f32) (harg12 : arg12.IsWhole) (arg13 : Memref sig .tc .vmem S32x16 .f32) (harg13 : arg13.IsWhole) (arg14 : Memref sig .tc .vmem S1x16 .f32) (harg14 : arg14.IsWhole) (arg15 : Memref sig .tc .vmem S16x1 .f32) (harg15 : arg15.IsWhole) (arg16 : Memref sig .tc .vmem S1x1 .f32) (harg16 : arg16.IsWhole) (arg17 : Memref sig .tc .vmem S2048x1 .f32) (harg17 : arg17.IsWhole)
    (x0 : Vec F S2048x128 .f32) (x1 : Vec F S2048x128 .f32) (x2 : Vec F S128x64 .f32) (x3 : Vec F S1x64 .f32) (x4 : Vec F S64x32 .f32) (x5 : Vec F S1x32 .f32) (x6 : Vec F S128x64 .f32) (x7 : Vec F S1x64 .f32) (x8 : Vec F S64x32 .f32) (x9 : Vec F S1x32 .f32) (x10 : Vec F S64x32 .f32) (x11 : Vec F S1x32 .f32) (x12 : Vec F S32x16 .f32) (x13 : Vec F S1x16 .f32) (x14 : Vec F S16x1 .f32) (x15 : Vec F S1x1 .f32) (d : Vec F S2048x1 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ owns c arg16 fullShare x15 ∗ owns c arg17 fullShare d
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ owns c arg16 fullShare x15 ∗ owns c arg17 fullShare (out4_16 x0 x1 x2 x3 x4 x5 x6 x7 x8 x9 x10 x11 x12 x13 x14 x15)) -∗ K ⟨⟩))
      ⊢ wp frame (wpE (defs₀ (F := F)) Variants.none c none) E (cc4__batch_mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc4__batch_mlp_kernel_eq_skeleton]; unfold cc4__batch_mlp_kernel_skel
  simp only [k4_part1_eq_skeleton]; unfold k4_part1_skel
  simp only [k4_part2_eq_skeleton]; unfold k4_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, -, H16⟩, Hk⟩
  subst hf0 hf1 hf2 hf3 hf4 hf5 hf6 hf7 hf8 hf9 hf10 hf11 hf12 hf13 hf14 hf15
  sl_exec
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap; isplitl [H14]; swap; isplitl [H15]; swap
  all_goals (iexists _; isplitr; swap; iassumption; ipureintro)
  on_goal 1 => exact View.read_writes_eq_canon _ _ _ (View.cover_of_tiled _ S2048x1.size (by rfl))
  all_goals rfl

/-- The region's proof data: every input window keeps its block, the output window takes `out4_16` of the blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => out4_16 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t)
    | ⟨_ + 17, h⟩ => absurd h (Nat.not_lt.2 (Nat.le_add_left _ _))
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_16 (c : Dev nD) (t : Fin cfg4.N) : (dat4 V c).after 16 t = out4_16 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) := by dsimp only [dat4]

/-- Before the body an input window already holds what the body leaves in it: the body only reads it. -/
theorem before4_0 (c : Dev nD) (t : Fin cfg4.N) (d) : (dat4 V c).before 0 t d = (dat4 V c).after 0 t :=
  ((dat4 V c).before_in_eq_fetched _ rfl (fun _ => rfl) (fun _ _ _ => rfl) (fun _ => rfl) t d).trans rfl
theorem before4_1 (c : Dev nD) (t : Fin cfg4.N) (d) : (dat4 V c).before 1 t d = (dat4 V c).after 1 t :=
  ((dat4 V c).before_in_eq_fetched _ rfl (fun _ => rfl) (fun _ _ _ => rfl) (fun _ => rfl) t d).trans rfl
theorem before4_2 (c : Dev nD) (t : Fin cfg4.N) (d) : (dat4 V c).before 2 t d = (dat4 V c).after 2 t :=
  ((dat4 V c).before_in_eq_fetched _ rfl (fun _ => rfl) (fun _ _ _ => rfl) (fun _ => rfl) t d).trans rfl
theorem before4_3 (c : Dev nD) (t : Fin cfg4.N) (d) : (dat4 V c).before 3 t d = (dat4 V c).after 3 t :=
  ((dat4 V c).before_in_eq_fetched _ rfl (fun _ => rfl) (fun _ _ _ => rfl) (fun _ => rfl) t d).trans rfl
theorem before4_4 (c : Dev nD) (t : Fin cfg4.N) (d) : (dat4 V c).before 4 t d = (dat4 V c).after 4 t :=
  ((dat4 V c).before_in_eq_fetched _ rfl (fun _ => rfl) (fun _ _ _ => rfl) (fun _ => rfl) t d).trans rfl
theorem before4_5 (c : Dev nD) (t : Fin cfg4.N) (d) : (dat4 V c).before 5 t d = (dat4 V c).after 5 t :=
  ((dat4 V c).before_in_eq_fetched _ rfl (fun _ => rfl) (fun _ _ _ => rfl) (fun _ => rfl) t d).trans rfl
theorem before4_6 (c : Dev nD) (t : Fin cfg4.N) (d) : (dat4 V c).before 6 t d = (dat4 V c).after 6 t :=
  ((dat4 V c).before_in_eq_fetched _ rfl (fun _ => rfl) (fun _ _ _ => rfl) (fun _ => rfl) t d).trans rfl
theorem before4_7 (c : Dev nD) (t : Fin cfg4.N) (d) : (dat4 V c).before 7 t d = (dat4 V c).after 7 t :=
  ((dat4 V c).before_in_eq_fetched _ rfl (fun _ => rfl) (fun _ _ _ => rfl) (fun _ => rfl) t d).trans rfl
theorem before4_8 (c : Dev nD) (t : Fin cfg4.N) (d) : (dat4 V c).before 8 t d = (dat4 V c).after 8 t :=
  ((dat4 V c).before_in_eq_fetched _ rfl (fun _ => rfl) (fun _ _ _ => rfl) (fun _ => rfl) t d).trans rfl
theorem before4_9 (c : Dev nD) (t : Fin cfg4.N) (d) : (dat4 V c).before 9 t d = (dat4 V c).after 9 t :=
  ((dat4 V c).before_in_eq_fetched _ rfl (fun _ => rfl) (fun _ _ _ => rfl) (fun _ => rfl) t d).trans rfl
theorem before4_10 (c : Dev nD) (t : Fin cfg4.N) (d) : (dat4 V c).before 10 t d = (dat4 V c).after 10 t :=
  ((dat4 V c).before_in_eq_fetched _ rfl (fun _ => rfl) (fun _ _ _ => rfl) (fun _ => rfl) t d).trans rfl
theorem before4_11 (c : Dev nD) (t : Fin cfg4.N) (d) : (dat4 V c).before 11 t d = (dat4 V c).after 11 t :=
  ((dat4 V c).before_in_eq_fetched _ rfl (fun _ => rfl) (fun _ _ _ => rfl) (fun _ => rfl) t d).trans rfl
theorem before4_12 (c : Dev nD) (t : Fin cfg4.N) (d) : (dat4 V c).before 12 t d = (dat4 V c).after 12 t :=
  ((dat4 V c).before_in_eq_fetched _ rfl (fun _ => rfl) (fun _ _ _ => rfl) (fun _ => rfl) t d).trans rfl
theorem before4_13 (c : Dev nD) (t : Fin cfg4.N) (d) : (dat4 V c).before 13 t d = (dat4 V c).after 13 t :=
  ((dat4 V c).before_in_eq_fetched _ rfl (fun _ => rfl) (fun _ _ _ => rfl) (fun _ => rfl) t d).trans rfl
theorem before4_14 (c : Dev nD) (t : Fin cfg4.N) (d) : (dat4 V c).before 14 t d = (dat4 V c).after 14 t :=
  ((dat4 V c).before_in_eq_fetched _ rfl (fun _ => rfl) (fun _ _ _ => rfl) (fun _ => rfl) t d).trans rfl
theorem before4_15 (c : Dev nD) (t : Fin cfg4.N) (d) : (dat4 V c).before 15 t d = (dat4 V c).after 15 t :=
  ((dat4 V c).before_in_eq_fetched _ rfl (fun _ => rfl) (fun _ _ _ => rfl) (fun _ => rfl) t d).trans rfl

/-- At every point the inputs are the blocks, so the body's triple applies; the invariant and the owed tallies pass through unread. -/
theorem body_obligation4 (c : Dev nD) : BodyObligation (dat4 (F := F) V c) (defs₀ (F := F)) Variants.none () Set.univ := fun t => by
  rw [bigSep_W4, bigSep_W4]
  dsimp only
  simp only [before4_0, before4_1, before4_2, before4_3, before4_4, before4_5, before4_6, before4_7, before4_8, before4_9, before4_10, before4_11, before4_12, before4_13, before4_14, before4_15]
  rw [show (dat4 V c).owesAt () t.succ = (dat4 V c).owesAt () t.castSucc from rfl]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel4 c Set.univ (grid4.coords t) _ _ _ _ _ _ _ _ _ _ _ _ _ _ _ _ _ _ _ _ _ _ _ _ _ _ _ _ _ _ _ _ _ _ _ _ _ _ _ _ _ _ _ _ _ _ _ _ _ _ _ _)
  iframe
  iintro H; iexact H

end Cert.Kernel.Hand

end
-- ==== Proof.RunK.lean ====
import proofs.«401547_j83227876262380_2_alg».proof.Proof.RunCondK
import proofs.«401547_j83227876262380_2_alg».proof.Proof.Reg0K
import proofs.«401547_j83227876262380_2_alg».proof.Proof.Reg1K
import proofs.«401547_j83227876262380_2_alg».proof.Proof.Reg2K
import proofs.«401547_j83227876262380_2_alg».proof.Proof.Reg3K
import proofs.«401547_j83227876262380_2_alg».proof.Proof.Reg4K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a3 : (pcfg3 (F := F)).Adm)

abbrev rd (W : Dev nD → Valuation τ sig (Elt F)) : (c : Dev nD) → (b : Ref sig .tc) → Buf (Elt F) ((c : Thread nD τ).loc b) :=
  fun c b => W c b

def o2 (c : Dev nD) : Buf (Elt F) ((c : Thread nD τ).loc main_v14) := (dat0 (rd (V1 m)) c).arrAt 3 cfg0.N
def outs2 : Outs (F := F) := fun j r c => match j with
  | 2 => Function.update (V0 m c) main_v14 (o2 m c) r
  | _ => V0 m c r
def o4 (c : Dev nD) : Buf (Elt F) ((c : Thread nD τ).loc main_v29) := (dat1 (rd (V3 m (outs2 m))) c).arrAt 3 cfg1.N
def outs4 : Outs (F := F) := fun j r c => match j with
  | 2 => Function.update (V0 m c) main_v14 (o2 m c) r
  | 4 => Function.update (V0 m c) main_v29 (o4 m c) r
  | _ => V0 m c r
def o6 (c : Dev nD) : Buf (Elt F) ((c : Thread nD τ).loc main_v44) := (dat2 (rd (V5 m (outs4 m))) c).arrAt 3 cfg2.N
def outs6 : Outs (F := F) := fun j r c => match j with
  | 2 => Function.update (V0 m c) main_v14 (o2 m c) r
  | 4 => Function.update (V0 m c) main_v29 (o4 m c) r
  | 6 => Function.update (V0 m c) main_v44 (o6 m c) r
  | _ => V0 m c r
def o8a (c : Dev nD) : Buf (Elt F) ((c : Thread nD τ).loc main_v47_0) := (dat3 a3 (rd (V7 m (outs6 m))) c).arrAt 2 (cfg3 a3).N
def o8b (c : Dev nD) : Buf (Elt F) ((c : Thread nD τ).loc main_v47_1) := (dat3 a3 (rd (V7 m (outs6 m))) c).arrAt 3 (cfg3 a3).N
def outs8 : Outs (F := F) := fun j r c => match j with
  | 2 => Function.update (V0 m c) main_v14 (o2 m c) r
  | 4 => Function.update (V0 m c) main_v29 (o4 m c) r
  | 6 => Function.update (V0 m c) main_v44 (o6 m c) r
  | 8 => Function.update (Function.update (V0 m c) main_v47_0 (o8a m a3 c)) main_v47_1 (o8b m a3 c) r
  | _ => V0 m c r
def o10 (c : Dev nD) : Buf (Elt F) ((c : Thread nD τ).loc main_v57) := (dat4 (rd (V9 m (outs8 m a3))) c).arrAt 16 cfg4.N
def outs10 : Outs (F := F) := fun j r c => match j with
  | 2 => Function.update (V0 m c) main_v14 (o2 m c) r
  | 4 => Function.update (V0 m c) main_v29 (o4 m c) r
  | 6 => Function.update (V0 m c) main_v44 (o6 m c) r
  | 8 => Function.update (Function.update (V0 m c) main_v47_0 (o8a m a3 c)) main_v47_1 (o8b m a3 c) r
  | 10 => Function.update (V0 m c) main_v57 (o10 m a3 c) r
  | _ => V0 m c r

def adm : (p : Fin 5) → (pcfgs (F := F) p).Adm
  | ⟨0, _⟩ => cfg0.toPCfg_adm
  | ⟨1, _⟩ => cfg1.toPCfg_adm
  | ⟨2, _⟩ => cfg2.toPCfg_adm
  | ⟨3, _⟩ => a3
  | ⟨4, _⟩ => cfg4.toPCfg_adm

def pdats : (p : Fin 5) → (c : Dev nD) → Dat τ (Elt F) Unit ℕ (UR sig nD τ) ℕ (Pipeline.pin (pcfgs (F := F)) (adm a3) p) c
  | ⟨0, _⟩ => fun c => dat0 (rd (V1 m)) c
  | ⟨1, _⟩ => fun c => dat1 (rd (V3 m (outs2 m))) c
  | ⟨2, _⟩ => fun c => dat2 (rd (V5 m (outs4 m))) c
  | ⟨3, _⟩ => fun c => dat3 a3 (rd (V7 m (outs6 m))) c
  | ⟨4, _⟩ => fun c => dat4 (rd (V9 m (outs8 m a3))) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- A pipeline without prefetched tables holds none. -/
theorem noTables (pre : Pipeline.Prefetch sig) (h : pre.K = 0) (c : Dev nD) (V : pre.Contents (Elt F)) :
    (BI.emp : sProp 𝕄) ⊢ Pipeline.prefHeld pre c (fun _ => fullShare) V := by
  unfold Pipeline.prefHeld
  have : IsEmpty (Fin pre.K) := h ▸ Fin.isEmpty'
  rw [Finset.univ_eq_empty, BI.bigSep_empty]

set_option backward.isDefEq.respectTransparency.types false in
/-- A region with no table and no semaphore of its own, between two valuations that differ at its one output array only. -/
def plainSeg (p : Fin 5) (lf : Pipeline.PLaunchFacts (nD := nD) (τ := τ) (pcfgs (F := F)) p)
    (Vi Vo : Dev nD → Valuation τ sig (Elt F)) (wo : Fin (Pipeline.pin (pcfgs (F := F)) (adm a3) p).W)
    (hbody : ∀ c, BodyObligation (pdats m a3 p c) (defs₀ (F := F)) 𝒱₀ () Set.univ)
    (hout : ∀ c, (pdats m a3 p c).arrAt wo (Pipeline.pin (pcfgs (F := F)) (adm a3) p).N = Vo c (Pipeline.arrRef (pcfgs (F := F) p).spec wo))
    (hkeep : ∀ c b, b ∉ [Pipeline.arrRef (pcfgs (F := F) p).spec wo] → Vo c b = Vi c b)
    (hin : ∀ w, w ≠ wo → ((Pipeline.pin (pcfgs (F := F)) (adm a3) p).win w).isOut = false)
    (hpf : ∀ c, (BI.emp : sProp 𝕄) ⊢ Pipeline.prefHeld (pcfgs (F := F) p).pre c (fun _ => fullShare) (adm a3 p).1)
    (hA : ∀ c w, (pdats m a3 p c).A w = Vi c (Pipeline.arrRef (pcfgs (F := F) p).spec w))
    (hΦ : ∀ c t, (pdats m a3 p c).Φ t = Pipeline.ΦA (pcfgs (F := F) p).spec c)
    (howed : ∀ c t, (pdats m a3 p c).owed t = 0) (hrec : ∀ c x, x ∈ (pdats m a3 p c).recorded 0)
    (hq : ∀ c w, (pdats m a3 p c).q w = fullShare) :
    Pipeline.RegionSeg (pcfgs (F := F)) (adm a3) (pdats m a3) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (rd Vi c)
  hentry c := by
    unfold Pipeline.Dat.owesAt; rw [Pipeline.ownSems0_none, howed c 0]
    have hsplit := Pipeline.arrays_of_unscopedBufs (p := p) (pcfgs (F := F)) (adm a3) (pdats m a3) lf.win lf.arr_whole c
      ((pdats m a3 p c).share_full (hq c)) (rd Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (hpf c); iempintro
    isplitl [HO]
    · unfold Pipeline.owesWithin
      icases HO with ⟨%W, HO⟩; iexists W; isplitr; · ipureintro; exact fun _ _ => Or.inl (hrec c _)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    unfold Pipeline.Dat.owesAt; rw [howed c (Fin.last _)]
    have hjoin := Pipeline.unscopedBufs_of_arrays (p := p) (pcfgs (F := F)) (adm a3) (Ix := Unit) (Name := ℕ) (U := UR sig nD τ) (Lvl := ℕ)
      lf.win lf.arr_whole c (pdats m a3) ((pdats m a3 p c).share_full (hq c))
      (rd Vi c) (rd Vo c) ((pdats m a3 p c).arrAt · (Pipeline.pin (pcfgs (F := F)) (adm a3) p).N)
      (fun w => if h : w = wo then h ▸ hout c else by
        rw [(pdats m a3 p c).arrAt_in w (hin w h), hA c w]
        exact (hkeep c _ fun e => h (lf.win.arr_inj (List.mem_singleton.mp e))).symm)
      (fun b hb => hkeep c b fun e => hb (Finset.mem_image.mpr ⟨wo, Finset.mem_univ _, (List.mem_singleton.mp e).symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.owesWithin
    icases HO with ⟨%W, -, HO⟩; iexists W; iexact HO

theorem V2_out0 (c : Dev nD) : rd (V2 m (outs2 m)) c main_v14 = o2 m c := by
  simp only [rd, V2, outs2, Function.update_self]
theorem V4_out1 (c : Dev nD) : rd (V4 m (outs4 m)) c main_v29 = o4 m c := by
  simp only [rd, V4, outs4, Function.update_self]
theorem V6_out2 (c : Dev nD) : rd (V6 m (outs6 m)) c main_v44 = o6 m c := by
  simp only [rd, V6, outs6, Function.update_self]
theorem V10_out4 (c : Dev nD) : rd (V10 m (outs10 m a3)) c main_v57 = o10 m a3 c := by
  simp only [rd, V10, outs10, Function.update_self]

def reg0 : Pipeline.RegionSeg (pcfgs (F := F)) (adm a3) (pdats m a3) () defs₀ 𝒱₀ L lv 0 :=
  plainSeg m a3 0 launch0 (V1 m) (V2 m (outs2 m)) 3 (fun c => body_obligation0 (rd (V1 m)) c) (fun c => (V2_out0 m c).symm)
    (V2_of m (outs2 m)) (show ∀ w : Fin cfg0.W, w ≠ 3 → (cfg0.win w).isOut = false by decide) (fun c => noTables _ rfl c _) (fun _ _ => rfl) (fun _ _ => rfl) (fun _ _ => rfl) (fun _ _ => trivial) (fun _ _ => rfl)
def reg1 : Pipeline.RegionSeg (pcfgs (F := F)) (adm a3) (pdats m a3) () defs₀ 𝒱₀ L lv 1 :=
  plainSeg m a3 1 launch1 (V3 m (outs2 m)) (V4 m (outs4 m)) 3 (fun c => body_obligation1 (rd (V3 m (outs2 m))) c) (fun c => (V4_out1 m c).symm)
    (V4_of m (outs4 m)) (show ∀ w : Fin cfg1.W, w ≠ 3 → (cfg1.win w).isOut = false by decide) (fun c => noTables _ rfl c _) (fun _ _ => rfl) (fun _ _ => rfl) (fun _ _ => rfl) (fun _ _ => trivial) (fun _ _ => rfl)
def reg2 : Pipeline.RegionSeg (pcfgs (F := F)) (adm a3) (pdats m a3) () defs₀ 𝒱₀ L lv 2 :=
  plainSeg m a3 2 launch2 (V5 m (outs4 m)) (V6 m (outs6 m)) 3 (fun c => body_obligation2 (rd (V5 m (outs4 m))) c) (fun c => (V6_out2 m c).symm)
    (V6_of m (outs6 m)) (show ∀ w : Fin cfg2.W, w ≠ 3 → (cfg2.win w).isOut = false by decide) (fun c => noTables _ rfl c _) (fun _ _ => rfl) (fun _ _ => rfl) (fun _ _ => rfl) (fun _ _ => trivial) (fun _ _ => rfl)
def reg4 : Pipeline.RegionSeg (pcfgs (F := F)) (adm a3) (pdats m a3) () defs₀ 𝒱₀ L lv 4 :=
  plainSeg m a3 4 launch4 (V9 m (outs8 m a3)) (V10 m (outs10 m a3)) 16 (fun c => body_obligation4 (rd (V9 m (outs8 m a3))) c) (fun c => (V10_out4 m a3 c).symm)
    (V10_of m (outs10 m a3)) (show ∀ w : Fin cfg4.W, w ≠ 16 → (cfg4.win w).isOut = false by decide) (fun c => noTables _ rfl c _) (fun _ _ => rfl) (fun _ _ => rfl) (fun _ _ => rfl) (fun _ _ => trivial) (fun _ _ => rfl)

end Cert.Kernel.Hand

end
-- ==== Proof.Seg3K.lean ====

import proofs.«401547_j83227876262380_2_alg».proof.Proof.Reg3K

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a3 : (pcfg3 (F := F)).Adm) (V : (c : Dev nD) → (b : Ref sig .tc) → Buf (Elt F) ((c : Thread nD τ).loc b))

section Carve
variable (c : Dev nD) (B : (b : Ref sig .tc) → Buf (Elt F) ((c : Thread nD τ).loc b))

theorem seg3_sep_eq {P P' Q Q' : sProp 𝕄} (h : P = P') (h' : Q = Q') : iprop(P ∗ Q) = iprop(P' ∗ Q') := by rw [h, h']

theorem seg3_pt_set {ℓ : Loc nD τ sig} {I J : Finset (Idx ℓ)} (h : I = J) (q : PosShare TreeShare) (f : Buf (Elt F) ℓ) :
    ((ℓ ↦[I]{q} f) : sProp 𝕄) = (ℓ ↦[J]{q} f) := by rw [h]

-- The windows' arrays at the contents B of their buffers, one by one: the two input windows hold the halves of one buffer.
theorem seg3_arrays_eq :
    ((dat3 a3 V c).arrays (fun w => B (Pipeline.arrRef spec3 w)) : sProp 𝕄)
      = iprop((((c : Thread nD τ).loc main_v46) ↦{fullShare.left} B main_v46) ∗ (((c : Thread nD τ).loc main_v46) ↦{fullShare.right} B main_v46)
          ∗ (((c : Thread nD τ).loc main_v47_0) ↦{fullShare} B main_v47_0) ∗ (((c : Thread nD τ).loc main_v47_1) ↦{fullShare} B main_v47_1)) :=
  by
  unfold Dat.arrays
  refine (bigSep_W3 _).trans ?_
  exact seg3_sep_eq (seg3_pt_set (arr_whole3 0).set_eq_univ _ _) (seg3_sep_eq (seg3_pt_set (arr_whole3 1).set_eq_univ _ _) (seg3_sep_eq (seg3_pt_set (arr_whole3 2).set_eq_univ _ _) (seg3_pt_set (arr_whole3 3).set_eq_univ _ _)))

theorem seg3_arrBufs_eq :
    (Pipeline.arrBufs spec3 c B : sProp 𝕄)
      = iprop((((c : Thread nD τ).loc main_v46) ↦{fullShare} B main_v46) ∗ (((c : Thread nD τ).loc main_v47_0) ↦{fullShare} B main_v47_0)
          ∗ (((c : Thread nD τ).loc main_v47_1) ↦{fullShare} B main_v47_1)) := by
  unfold Pipeline.arrBufs
  rw [show Finset.univ.image (Pipeline.arrRef spec3) = {main_v46, main_v47_0, main_v47_1} from by decide,
    bigSep_insert (by decide), bigSep_insert (by decide), bigSep_singleton]
  rfl

include a3 in
theorem seg3_ub_split :
    (unscopedBufs c B : sProp 𝕄)
      = iprop(Pipeline.arrBufs spec3 c B ∗ Pipeline.prefHeld pre3 c (fun _ => fullShare) (fun k => B (pre3.ref k)) ∗ Pipeline.unscopedRestP pre3 spec3 c B) := by
  rw [← Pipeline.unscopedRest_split preFacts3 c B]
  exact Pipeline.PerCore.unscopedBufs_split₀ (fun _ (_ : Unit) => cfg3 a3) () c winFacts₀3.arr_unscoped B

-- The buffer the two input windows share, whole, is its two halves.
theorem seg3_arrays_iff_arrBufs
    (G : (w : Fin (cfg3 a3).W) → Buf (Elt F) (((cfg3 a3).win w).arr.view.loc (c : Thread nD τ))) (hG : ∀ w, G w = B (Pipeline.arrRef spec3 w)) :
    ((dat3 a3 V c).arrays G : sProp 𝕄) ⊣⊢ Pipeline.arrBufs spec3 c B := by
  obtain rfl : G = fun w => B (Pipeline.arrRef spec3 w) := funext hG
  rw [seg3_arrays_eq a3 V c B, seg3_arrBufs_eq c B]
  constructor
  · iintro ⟨Hl, Hr, H2, H3⟩
    iframe H2 H3
    iapply (pointsTo_share (PosShare.mem_left_op_right fullShare)).2
    iframe
  · iintro ⟨H, H2, H3⟩
    iframe H2 H3
    iapply (pointsTo_share (PosShare.mem_left_op_right fullShare)).1
    iexact H

end Carve

abbrev Rrest (c : Dev nD) : sProp 𝕄 := iprop((∃ r, prngReg c r) ∗ ∃ W, owes (c : Thread nD τ) (0 : CellTallies nD τ sig Unit) W)

def X3 (c : Dev nD) : sProp 𝕄 := iprop(∃ r, prngReg c r)

def Y3 (c : Dev nD) : sProp 𝕄 := iprop((∃ r, prngReg c r) ∗ Pipeline.prefHeld (Ix := Unit) (Name := ℕ) (U := UR sig nD τ) (Lvl := ℕ) pre3 c (fun _ => fullShare) a3.1)

def Z3 (W : Valuation τ sig (Elt F)) (c : Dev nD) : sProp 𝕄 :=
  Pipeline.unscopedRestP (Ix := Unit) (Name := ℕ) (U := UR sig nD τ) (Lvl := ℕ) pre3 spec3 c (fun b => W b)

theorem seg3_held_split (c : Dev nD) (W : Valuation τ sig (Elt F)) (htab : ∀ j, W (pre3.ref j) = a3.1 j) :
    (StableHlo.held (c : Thread nD τ) (Pipeline.ucRefs τ sig) W : sProp 𝕄)
      = iprop(Pipeline.arrBufs spec3 c (fun b => W b) ∗ Pipeline.prefHeld pre3 c (fun _ => fullShare) a3.1 ∗ Z3 W c) :=
  ((Pipeline.unscopedBufs_held c W).symm.trans (seg3_ub_split a3 c (fun b => W b))).trans
    (seg3_sep_eq rfl (seg3_sep_eq (congrArg (Pipeline.prefHeld pre3 c (fun _ => fullShare)) (funext htab)) rfl))

theorem entry3 (c : Dev nD) (W : Valuation τ sig (Elt F)) (hV : ∀ b, V c b = W b) (htab : ∀ j, W (pre3.ref j) = a3.1 j) :
    iprop(StableHlo.held (c : Thread nD τ) (Pipeline.ucRefs τ sig) W ∗ Rrest c)
      ⊢ |={Set.univ}=> iprop((dat3 a3 V c).arrays ((dat3 a3 V c).arrAt · 0)
          ∗ Pipeline.prefHeld (Ix := Unit) (Name := ℕ) (U := UR sig nD τ) (Lvl := ℕ) pre3 c (fun _ => fullShare) a3.1
          ∗ (dat3 a3 V c).owesAt () 0 ∗ X3 c ∗ Z3 W c) := by
  rw [seg3_held_split a3 c W htab]; unfold X3 Pipeline.Dat.owesAt Pipeline.owesWithin
  iintro ⟨⟨Harr, Hpf, Hrest⟩, Hp, %W0, HO⟩
  imodintro
  iframe Hpf Hp Hrest
  isplitl [Harr]
  · iapply (seg3_arrays_iff_arrBufs a3 V c (fun b => W b) _ (fun w => hV (Pipeline.arrRef spec3 w))).2
    iexact Harr
  iexists W0; isplitr; · ipureintro; exact fun _ _ => Or.inl trivial
  iexact HO

theorem exit3 (c : Dev nD) (W W' : Valuation τ sig (Elt F)) (htab : ∀ j, W (pre3.ref j) = a3.1 j)
    (hF : ∀ w, (dat3 a3 V c).arrAt w (cfg3 a3).N = W' (Pipeline.arrRef spec3 w))
    (hrest : ∀ b : Ref sig .tc, b ∉ Finset.univ.image (Pipeline.arrRef spec3) → W' b = W b) :
    iprop((dat3 a3 V c).arrays ((dat3 a3 V c).arrAt · (cfg3 a3).N) ∗ (dat3 a3 V c).owesAt () (Fin.last (cfg3 a3).N) ∗ Y3 a3 c ∗ Z3 W c)
      ⊢ |={Set.univ}=> iprop(StableHlo.held (c : Thread nD τ) (Pipeline.ucRefs τ sig) W' ∗ Rrest c) := by
  have htab' : ∀ j, W' (pre3.ref j) = a3.1 j := fun j =>
    (hrest (pre3.ref j) fun h => by
      obtain ⟨w, -, hw⟩ := Finset.mem_image.mp h
      exact preFacts3.disj j w hw.symm).trans (htab j)
  have hZ : (Z3 W' c : sProp 𝕄) = Z3 W c := by
    unfold Z3 Pipeline.unscopedRestP
    exact bigSep_congr fun b hb => by beta_reduce; rw [hrest b (Finset.mem_sdiff.mp (Finset.mem_sdiff.mp hb).1).2]
  rw [seg3_held_split a3 c W' htab', hZ]; unfold Y3 Rrest Pipeline.Dat.owesAt Pipeline.owesWithin
  iintro ⟨Ha, ⟨%W0, -, HO⟩, ⟨Hp, Hpf⟩, HZ⟩
  imodintro
  iframe Hpf HZ Hp
  isplitl [Ha]
  · iapply (seg3_arrays_iff_arrBufs a3 V c (fun b => W' b) _ hF).1
    iexact Ha
  iexists W0; iexact HO

end Cert.Kernel.Hand
-- ==== Proof.FinalK.lean ====
import proofs.«401547_j83227876262380_2_alg».proof.Proof.RunK
import proofs.«401547_j83227876262380_2_alg».proof.Proof.Seg3K

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a3 : (pcfg3 (F := F)).Adm)

theorem V7_stage (c : Dev nD) : V7 m (outs8 m a3) c = V7 m (outs6 m) c := rfl

theorem v47_ne : (Proc.devRef .tc main_v47_0 : DevRef τ sig) ≠ Proc.devRef .tc main_v47_1 :=
  StableHlo.devRef_ne_of_ne (by decide)

theorem V8_out2 (c : Dev nD) : rd (V8 m (outs8 m a3)) c main_v47_0 = o8a m a3 c := by
  simp only [rd, V8, outs8, Function.update_self, Function.update_of_ne v47_ne]

theorem V8_out3 (c : Dev nD) : rd (V8 m (outs8 m a3)) c main_v47_1 = o8b m a3 c := by
  simp only [rd, V8, outs8, Function.update_self]

theorem hF3_0 (c : Dev nD) : (dat3 a3 (rd (V7 m (outs6 m))) c).arrAt 0 (cfg3 a3).N = rd (V8 m (outs8 m a3)) c main_v46 := by
  rw [(dat3 a3 (rd (V7 m (outs6 m))) c).arrAt_in 0 rfl, A_eq3]
  exact ((V8_of m (outs8 m a3) c main_v46 (by decide)).trans (congrFun (V7_stage m a3 c) _)).symm
theorem hF3_1 (c : Dev nD) : (dat3 a3 (rd (V7 m (outs6 m))) c).arrAt 1 (cfg3 a3).N = rd (V8 m (outs8 m a3)) c main_v46 := by
  rw [(dat3 a3 (rd (V7 m (outs6 m))) c).arrAt_in 1 rfl, A_eq3]
  exact ((V8_of m (outs8 m a3) c main_v46 (by decide)).trans (congrFun (V7_stage m a3 c) _)).symm

theorem hF3 (c : Dev nD) : ∀ w : Fin (cfg3 a3).W, (dat3 a3 (rd (V7 m (outs6 m))) c).arrAt w (cfg3 a3).N = rd (V8 m (outs8 m a3)) c (Pipeline.arrRef spec3 w)
  | ⟨0, _⟩ => hF3_0 m a3 c
  | ⟨1, _⟩ => hF3_1 m a3 c
  | ⟨2, _⟩ => (V8_out2 m a3 c).symm
  | ⟨3, _⟩ => (V8_out3 m a3 c).symm

theorem hrest3 (c : Dev nD) : ∀ b, b ∉ Finset.univ.image (Pipeline.arrRef spec3) → rd (V8 m (outs8 m a3)) c b = rd (V7 m (outs6 m)) c b :=
  fun b hb => ((V8_of m (outs8 m a3) c b fun h => by
    rcases List.mem_cons.mp h with h | h
    · exact hb (Finset.mem_image.mpr ⟨2, Finset.mem_univ _, by cases h; rfl⟩)
    · exact hb (Finset.mem_image.mpr ⟨3, Finset.mem_univ _, by cases List.mem_singleton.mp h; rfl⟩)).trans (congrFun (V7_stage m a3 c) _))

set_option backward.isDefEq.respectTransparency.types false in

def reg3 (htab : ∀ (c : Dev nD) (j : Fin 2), V7 m (outs6 m) c (pre3.ref j) = a3.1 j) :
    Pipeline.RegionSeg (pcfgs (F := F)) (adm a3) (pdats m a3) () defs₀ 𝒱₀ L lv 3 where
  win := winFacts₀3
  block_pos := block_pos3
  stage_whole := stage_whole3
  K := PEmpty
  osem k := k.elim
  ho := Pipeline.OwnSemFacts.none _
  hbody c := (body_obligation3 a3 (rd (V7 m (outs6 m))) c).loose
  hwaits := Pipeline.hwaits_of_owed_zero _ _ _ _ L lv 3 fun _ _ => rfl
  pre c := iprop(StableHlo.held (c : Thread nD τ) (Pipeline.ucRefs τ sig) (V7 m (outs6 m) c) ∗ R c)
  post c := iprop(StableHlo.held (c : Thread nD τ) (Pipeline.ucRefs τ sig) (V8 m (outs8 m a3) c) ∗ R c)
  X c := X3 c
  Y c := Y3 a3 c
  Z c := Z3 (V7 m (outs6 m) c) c
  hentry c := by
    rw [Pipeline.ownSems0_none]
    iintro ⟨H, -, -⟩
    iapply (entry3 a3 (rd (V7 m (outs6 m))) c (V7 m (outs6 m) c) (fun _ => rfl) (htab c))
    iexact H
  hin c := Phi3_in a3 (rd (V7 m (outs6 m))) c
  hout c := Phi3_out a3 (rd (V7 m (outs6 m))) c
  hexit c := exit3 a3 (rd (V7 m (outs6 m))) c (V7 m (outs6 m) c) (V8 m (outs8 m a3) c) (htab c) (hF3 m a3 c) (hrest3 m a3 c)

set_option backward.isDefEq.respectTransparency.types false in

theorem run_all (htab : ∀ (c : Dev nD) (j : Fin 2), V7 m (outs6 m) c (pre3.ref j) = a3.1 j) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V10 m (outs10 m a3) c b) :=
  run_cond m emb₁ () 𝒱₀ L lv (fun _ _ => rfl) ρ (outs10 m a3) (adm a3) (pdats m a3) 0 (fun _ => iprop(emp))
    (initOf (Pipeline.cells (Pipeline.pin (pcfgs (F := F)) (adm a3)) (cellOf_inj (adm a3))) (Pipeline.launchToks (Pipeline.pin (pcfgs (F := F)) (adm a3)) (cellOf_inj (adm a3))))
    (by
      iintro Hu; imodintro
      isplitl [Hu]
      · iapply (show (ownU (initOf (Pipeline.cells (Pipeline.pin (pcfgs (F := F)) (adm a3)) (cellOf_inj (adm a3))) (Pipeline.launchToks (Pipeline.pin (pcfgs (F := F)) (adm a3)) (cellOf_inj (adm a3)))) : sProp 𝕄)
            ⊢ BI.own (emb₁ (initOf (Pipeline.cells (Pipeline.pin (pcfgs (F := F)) (adm a3)) (cellOf_inj (adm a3))) (Pipeline.launchToks (Pipeline.pin (pcfgs (F := F)) (adm a3)) (cellOf_inj (adm a3))))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m a3) (fun _ => .rfl) (fun _ => .rfl)
    (reg1 m a3) (fun _ => .rfl) (fun _ => .rfl)
    (reg2 m a3) (fun _ => .rfl) (fun _ => .rfl)
    (reg3 m a3 htab) (fun _ => .rfl) (fun _ => .rfl)
    (reg4 m a3) (fun _ => .rfl) (fun _ => .rfl)

end Cert.Kernel.Hand

end
-- ==== Proof.OkOfPreK.lean ====
import proofs.«401547_j83227876262380_2_alg».proof.Kernel
import proofs.«401547_j83227876262380_2_alg».proof.Pre_finite_inputs
import proofs.«401547_j83227876262380_2_alg».proof.Proof.Gen.Kernel
import proofs.«401547_j83227876262380_2_alg».proof.Proof.Gen.Pre_finite_inputs
import Idealize.ShloMosaic.Lib.ReduceAll
import Idealize.ShloMosaic.Lib.StableHlo.Predicate

noncomputable section

namespace Cert.Kernel.Hand

open Idealize.ShloMosaic Cert.Pre_finite_inputs Cert.Pre_finite_inputs.Facts

variable [Cert.Pre_finite_inputs.Facts] [Cert.Kernel.Facts] {F : FTy → Type} [FloatOps F]

section
omit [Cert.Kernel.Facts]

def j0 : S_.Idx := fun d => d.elim0

-- An all-reduce by `and` of the two signed compares 0 ≤ t and t < 100000 that came out 1 puts every word of t in [0, 100000), where signed and unsigned readings agree.
theorem all_range3 (t z n : IVec S16384 32) (c : IVec S_ 1) (hz : ∀ x, z x = 0#32) (hn : ∀ x, n x = 100000#32)
    (e : Host.reduce IntOp.andi (andi (cmpi .sge t z) (cmpi .slt t n)) c reducesTo_S16384_S_d0 h_S_ j0 = 1#1) (x : S16384.Idx) :
    (t x).toNat < 100000 ∧ 0 ≤ (t x).toInt := by
  obtain ⟨m0, m1⟩ := IntOp.andi_eq_one.1 (Host.reduce_andi_eq_one _ _ _ _ j0 e x (funext fun d => d.elim0))
  have p0 := IntOp.cmpi_sge.1 m0
  have p1 := IntOp.cmpi_slt.1 m1
  rw [hz, show (0#32 : BitVec 32).toInt = 0 from by decide] at p0
  rw [hn, show (100000#32 : BitVec 32).toInt = 100000 from by decide, BitVec.toInt_eq_toNat_of_lt (BitVec.toInt_pos_iff.1 p0)] at p1
  exact ⟨by omega, p0⟩

-- The precondition's last conjuncts are the two range checks of the index tables.
theorem part6_range (a23 : FVec F S1700000 .f32) (a24 a25 : IVec S16384 32) (v98 : IVec S_ 1) (v101 : IVec S1 1) (c39 : IVec S_ 1)
    (h : fn_part6 (F := F) a23 a24 a25 v98 v101 c39 = fun _ => 1#1) :
    (∀ x, (a24 x).toNat < 100000 ∧ 0 ≤ (a24 x).toInt) ∧ ∀ x, (a25 x).toNat < 100000 ∧ 0 ≤ (a25 x).toInt := by
  obtain ⟨e115, e121⟩ := IntOp.andi_eq_one.1 (congrFun h j0)
  exact ⟨all_range3 _ _ _ _ (fun _ => rfl) (fun _ => rfl) (IntOp.andi_eq_one.1 e115).2, all_range3 _ _ _ _ (fun _ => rfl) (fun _ => rfl) e121⟩

theorem row_block_inb (n : Nat) (hn : n < 100000) :
    ∀ a, ((![n, 0, 0] : Fin 3 → Nat) a + 1) * S1x1x128.size a ≤ S100000x1x128.size a := by
  intro a
  fin_cases a <;> simp [S1x1x128, S100000x1x128] <;> omega

end

variable (a0 : FVec F Cert.Pre_finite_inputs.S100000x32 .f32) (a1 : FVec F Cert.Pre_finite_inputs.S32x32 .f32) (a2 : FVec F Cert.Pre_finite_inputs.S32 .f32) (a3 : FVec F Cert.Pre_finite_inputs.S32x32 .f32) (a4 : FVec F Cert.Pre_finite_inputs.S32 .f32) (a5 : FVec F Cert.Pre_finite_inputs.S32x32 .f32) (a6 : FVec F Cert.Pre_finite_inputs.S32 .f32) (a7 : FVec F Cert.Pre_finite_inputs.S128x64 .f32) (a8 : FVec F Cert.Pre_finite_inputs.S64 .f32) (a9 : FVec F Cert.Pre_finite_inputs.S64x32 .f32) (a10 : FVec F Cert.Pre_finite_inputs.S32 .f32) (a11 : FVec F Cert.Pre_finite_inputs.S128x64 .f32) (a12 : FVec F Cert.Pre_finite_inputs.S64 .f32) (a13 : FVec F Cert.Pre_finite_inputs.S64x32 .f32) (a14 : FVec F Cert.Pre_finite_inputs.S32 .f32) (a15 : FVec F Cert.Pre_finite_inputs.S64x32 .f32) (a16 : FVec F Cert.Pre_finite_inputs.S32 .f32) (a17 : FVec F Cert.Pre_finite_inputs.S32x16 .f32) (a18 : FVec F Cert.Pre_finite_inputs.S16 .f32) (a19 : FVec F Cert.Pre_finite_inputs.S16x1 .f32) (a20 : FVec F Cert.Pre_finite_inputs.S1 .f32) (a21 : IVec Cert.Pre_finite_inputs.S1700000 32) (a22 : IVec Cert.Pre_finite_inputs.S1700000 32) (a23 : FVec F Cert.Pre_finite_inputs.S1700000 .f32) (a24 : IVec Cert.Pre_finite_inputs.S16384 32) (a25 : IVec Cert.Pre_finite_inputs.S16384 32)
  (h : Cert.Pre_finite_inputs.fn (F := F) a0 a1 a2 a3 a4 a5 a6 a7 a8 a9 a10 a11 a12 a13 a14 a15 a16 a17 a18 a19 a20 a21 a22 a23 a24 a25 = fun _ => 1#1)
include h

omit [Cert.Kernel.Facts] in
theorem u_range_of_pre : ∀ x : Cert.Pre_finite_inputs.S16384.Idx, (a24 x).toNat < 100000 ∧ 0 ≤ (a24 x).toInt :=
  (part6_range _ _ _ _ _ _ h).1

omit [Cert.Kernel.Facts] in
theorem i_range_of_pre : ∀ x : Cert.Pre_finite_inputs.S16384.Idx, (a25 x).toNat < 100000 ∧ 0 ≤ (a25 x).toInt :=
  (part6_range _ _ _ _ _ _ h).2

theorem ok3_of_pre (pf : pre3.Contents (Elt F)) (h0 : pf 0 = a24) (h1 : pf 1 = a25) : ok3 (F := F) pf := by
  subst h0 h1
  obtain ⟨hu, hi⟩ := part6_range _ _ _ _ _ _ h
  exact ⟨fun i => ⟨row_block_inb _ (hu _).1, Or.inl rfl⟩, fun i => ⟨row_block_inb _ (hi _).1, Or.inl rfl⟩⟩

end Cert.Kernel.Hand

end
-- ==== Proof.ClaimsK.lean ====
import proofs.«401547_j83227876262380_2_alg».proof.Defs
import proofs.«401547_j83227876262380_2_alg».proof.Proof.Gen.Pre_finite_inputs
import proofs.«401547_j83227876262380_2_alg».proof.Proof.FinalK
import proofs.«401547_j83227876262380_2_alg».proof.Proof.OkOfPreK

set_option maxRecDepth 16384

noncomputable section

namespace Cert.Kernel.Hand

open Cert.Kernel Cert.Kernel.Gen Cert.Kernel.GenP
open Idealize.ShloMosaic Idealize.ShloMosaic.TcCoe
open Idealize.SL Idealize.SL.Sem

variable {F : FTy → Type} [FloatOps F]

variable (m : (ℓ : Loc nD τ sig) → Buf (Elt F) ℓ)

def tblOf : pre3.Contents (Elt F) := fun j => m ((((0 : Dev nD).tc : Thread nD τ)).loc (pre3.ref j))

/-- No stretch and no earlier region writes an index table. -/
theorem htab_of (outs : Outs (F := F)) (c : Dev nD) (j : Fin 2) : V7 m outs c (pre3.ref j) = tblOf m j := by
  obtain rfl : c = 0 := Subsingleton.elim _ _
  fin_cases j <;>
    exact (V7_of m outs 0 _ (by decide)).trans <| (V6_of m outs 0 _ (by decide)).trans <| (V5_of m outs 0 _ (by decide)).trans <|
      (V4_of m outs 0 _ (by decide)).trans <| (V3_of m outs 0 _ (by decide)).trans <| (V2_of m outs 0 _ (by decide)).trans <| V1_of m 0 _ (by decide)

abbrev PreAt : Prop :=
  ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) = (fun _ => 1#1)

theorem ok_of_pre (h : PreAt m) : ok3 (F := F) (tblOf m) :=
  ok3_of_pre _ _ _ _ _ _ _ _ _ _ _ _ _ _ _ _ _ _ _ _ _ _ _ _ _ _ (h 0) _ rfl rfl

abbrev admOf (h : PreAt m) : (pcfg3 (F := F)).Adm := ⟨tblOf m, ok_of_pre m h⟩

/-- Core `c`'s argument arrays hold in `s` what they hold in the launch memory. -/
def ArgsKept (s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)
  ∧ s ((c.tc : Thread nD τ).loc main_arg12) = m ((c.tc : Thread nD τ).loc main_arg12)
  ∧ s ((c.tc : Thread nD τ).loc main_arg13) = m ((c.tc : Thread nD τ).loc main_arg13)
  ∧ s ((c.tc : Thread nD τ).loc main_arg14) = m ((c.tc : Thread nD τ).loc main_arg14)
  ∧ s ((c.tc : Thread nD τ).loc main_arg15) = m ((c.tc : Thread nD τ).loc main_arg15)
  ∧ s ((c.tc : Thread nD τ).loc main_arg16) = m ((c.tc : Thread nD τ).loc main_arg16)
  ∧ s ((c.tc : Thread nD τ).loc main_arg17) = m ((c.tc : Thread nD τ).loc main_arg17)
  ∧ s ((c.tc : Thread nD τ).loc main_arg18) = m ((c.tc : Thread nD τ).loc main_arg18)
  ∧ s ((c.tc : Thread nD τ).loc main_arg19) = m ((c.tc : Thread nD τ).loc main_arg19)
  ∧ s ((c.tc : Thread nD τ).loc main_arg20) = m ((c.tc : Thread nD τ).loc main_arg20)
  ∧ s ((c.tc : Thread nD τ).loc main_arg21) = m ((c.tc : Thread nD τ).loc main_arg21)
  ∧ s ((c.tc : Thread nD τ).loc main_arg22) = m ((c.tc : Thread nD τ).loc main_arg22)
  ∧ s ((c.tc : Thread nD τ).loc main_arg23) = m ((c.tc : Thread nD τ).loc main_arg23)
  ∧ s ((c.tc : Thread nD τ).loc main_arg24) = m ((c.tc : Thread nD τ).loc main_arg24)
  ∧ s ((c.tc : Thread nD τ).loc main_arg25) = m ((c.tc : Thread nD τ).loc main_arg25)

/-- Under the precondition the run ends with the result array as the last region leaves it and every argument array as launched: nothing writes an argument. -/
theorem run_of_pre (ρ : Dev nD → PrngReg) (h : PreAt m) :
    θ_run defs (onTc (τ := τ) (main (F := F))) ⟨m, fun _ => 0, ρ⟩ (fun r => ∀ c : Dev nD,
      r.2.mem ((c.tc : Thread nD τ).loc main_v57) = V10 m (outs10 m (admOf m h)) c main_v57 ∧ ArgsKept m r.2.mem c) :=
  (θ_run defs _ _).mono (fun r hr c =>
    have key : ∀ (b : Ref sig .tc) {x}, ¬ (Proc.devRef .tc b : DevRef τ sig).isScoped →
        V10 m (outs10 m (admOf m h)) c b = x → r.2.mem ((c.tc : Thread nD τ).loc b) = x :=
      fun b _ hs e => (hr c _ (Finset.mem_filter.mpr ⟨StableHlo.devRef_mem_tcRefs b, hs⟩)).trans e
    ⟨key main_v57 (by decide) rfl,
      key _ (by decide) (V10_main_arg0 m _ c),
      key _ (by decide) (V10_main_arg1 m _ c),
      key _ (by decide) (V10_main_arg2 m _ c),
      key _ (by decide) (V10_main_arg3 m _ c),
      key _ (by decide) (V10_main_arg4 m _ c),
      key _ (by decide) (V10_main_arg5 m _ c),
      key _ (by decide) (V10_main_arg6 m _ c),
      key _ (by decide) (V10_main_arg7 m _ c),
      key _ (by decide) (V10_main_arg8 m _ c),
      key _ (by decide) (V10_main_arg9 m _ c),
      key _ (by decide) (V10_main_arg10 m _ c),
      key _ (by decide) (V10_main_arg11 m _ c),
      key _ (by decide) (V10_main_arg12 m _ c),
      key _ (by decide) (V10_main_arg13 m _ c),
      key _ (by decide) (V10_main_arg14 m _ c),
      key _ (by decide) (V10_main_arg15 m _ c),
      key _ (by decide) (V10_main_arg16 m _ c),
      key _ (by decide) (V10_main_arg17 m _ c),
      key _ (by decide) (V10_main_arg18 m _ c),
      key _ (by decide) (V10_main_arg19 m _ c),
      key _ (by decide) (V10_main_arg20 m _ c),
      key _ (by decide) (V10_main_arg21 m _ c),
      key _ (by decide) (V10_main_arg22 m _ c),
      key _ (by decide) (V10_main_arg23 m _ c),
      key _ (by decide) (V10_main_arg24 m _ c),
      key _ (by decide) (V10_main_arg25 m _ c)⟩)
    (run_all m (admOf m h) (fun c j => htab_of m (outs6 m) c j) ρ)

theorem frame_of_pre (ρ : Dev nD → PrngReg) (h : PreAt m) :
    θ_run defs (onTc (τ := τ) (main (F := F))) ⟨m, fun _ => 0, ρ⟩ (fun r => ∀ c : Dev nD, ArgsKept m r.2.mem c) :=
  (θ_run defs _ _).mono (fun _ hr c => (hr c).2) (run_of_pre m ρ h)

end Cert.Kernel.Hand

end
-- ==== Proof.ClaimsBitsK.lean ====
import proofs.«401547_j83227876262380_2_alg».proof.Defs
import proofs.«401547_j83227876262380_2_alg».proof.Proof.ClaimsK

noncomputable section

namespace Cert.Kernel.Hand

open Cert.Kernel Cert.Kernel.Gen Cert.Kernel.GenP
open Idealize.ShloMosaic Idealize.ShloMosaic.TcCoe
open Idealize.SL Idealize.SL.Sem

theorem frame_p : Cert.frame_Kernel := fun m g h => frame_of_pre m g h

end Cert.Kernel.Hand

end
-- ==== Proof.RunCondKI.lean ====
import proofs.«401547_j83227876262380_2_alg».proof.Proof.RegionsKI

set_option maxRecDepth 3248

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen Cert.KernelIdeal.GenP

variable {F : FTy → Type} [FloatOps F]
variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 5) → (pcfgs (F := F) p).Adm)
    (pdats : (p : Fin 5) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c)) :
    θ_run defs (onTc (τ := τ) (main (F := F))) ⟨m, fun _ => 0, ρ⟩ (fun r => ∀ c : Dev nD,
      ∀ b ∈ Pipeline.ucRefs τ sig, r.2.mem ((c : Thread nD τ).1, b) = V10 m outs c b) := by
  refine Pipeline.θ_run_regions_kit_dev (pcfgs (F := F)) a pdats ι (cellOf_inj a) EP defs₀ 𝒱₀ L lv m ρ main
    (segs m outs 𝒱₀ L lv E ι a pdats R0 R1 R2 R3 R4)
    (fun c Q => by
      rewrite [main_chain c, Seg.run_eq_chain,
        show (segs m outs 𝒱₀ L lv E ι a pdats R0 R1 R2 R3 R4 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, hpre0 c, hpost0 c, hpre1 c, hpost1 c, hpre2 c, hpost2 c, hpre3 c, hpost3 c, hpre4 c, (hpost4 c).trans (sep_mono .rfl (hE5 c))⟩)
    (hinit := ?_) (QY := fun c s => ∀ b ∈ Pipeline.ucRefs τ sig, s.mem ((c : Thread nD τ).1, b) = V10 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact h
    · iexact HSI

end Cert.KernelIdeal.Hand

end
-- ==== Proof.Reg0KI.lean ====
import proofs.«401547_j83227876262380_2_alg».proof.Proof.LaunchKI
import proofs.«401547_j83227876262380_2_alg».proof.Proof.Gen.KernelIdeal.Skeleton
import proofs.«401547_j83227876262380_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x32 := Rect.unit (s := S2000x32) ![0, 0] S2000x32.size inb_S2000x32_S2000x32_0_0
abbrev r0_1 : Rect S32x32 := Rect.unit (s := S32x32) ![0, 0] S32x32.size inb_S32x32_S32x32_0_0
abbrev r0_2 : Rect S1x32 := Rect.unit (s := S1x32) ![0, 0] S1x32.size inb_S1x32_S1x32_0_0

def out0_3 (x0 : Vec F S2000x32 .f32) (x1 : Vec F S32x32 .f32) (x2 : Vec F S1x32 .f32) : Vec F S2000x32 .f32 :=
  View.canon [⟨r0_0, k0_pay1 (View.ld x0 r0_0) (View.ld x1 r0_1) (View.ld x2 r0_2)⟩]

set_option maxHeartbeats 1000000 in
theorem sound_kernel0 (c : Dev nD) (i : grid0.Coords) (a1 h1 a2 h2 a3 h3 a4 h4) (x0 x1 x2) (K : PUnit → sProp 𝕄) :
    iprop(owns c.tc a1 fullShare x0 ∗ owns c.tc a2 fullShare x1 ∗ owns c.tc a3 fullShare x2 ∗ (∃ d, owns c.tc a4 fullShare d)
        ∗ (iprop(owns c.tc a1 fullShare x0 ∗ owns c.tc a2 fullShare x1 ∗ owns c.tc a3 fullShare x2 ∗ owns c.tc a4 fullShare (out0_3 x0 x1 x2)) -∗ K ⟨⟩))
      ⊢ wp frame (wpE (defs₀ (F := F)) Variants.none c none) Set.univ (cc0__gcn_layer_kernel i a1 h1 a2 h2 a3 h3 a4 h4) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe H0 %hf0
  isplitl [H1]; · iexists f1; iframe H1 %hf1
  isplitl [H2]; · iexists f2; iframe H2 %hf2
  iexists _; iframe H3
  ipureintro; subst hf0 hf1 hf2
  exact View.read_writes_eq_canon _ _ _ (View.cover_of_tiled _ S2000x32.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) (iblk0 V c 2 t) := by dsimp only [dat0]

theorem before0_in (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) := by
  refine ⟨?_, ?_, ?_⟩ <;> intro d <;> exact (dat0 V c).before_in_eq_fetched _ rfl (fun _ => rfl) (fun _ _ _ => rfl) (fun _ => rfl) t d

theorem sound_body0 (c : Dev nD) (t : Fin cfg0.N) :
    iprop((dat0 V c).Φ t.castSucc ∗ (dat0 V c).owesAt () t.castSucc
      ∗ (∃ d, owns c.tc (st0_0 t) fullShare ((dat0 V c).before 0 t d))
      ∗ (∃ d, owns c.tc (st0_1 t) fullShare ((dat0 V c).before 1 t d))
      ∗ (∃ d, owns c.tc (st0_2 t) fullShare ((dat0 V c).before 2 t d))
      ∗ (∃ d, owns c.tc (st0_3 t) fullShare ((dat0 V c).before 3 t d)))
    ⊢ wp frame (wpE (defs₀ (F := F)) Variants.none c none) Set.univ (bodyAt0 t) fun _ =>
      iprop((dat0 V c).Φ t.castSucc ∗ (dat0 V c).owesAt () t.castSucc
        ∗ owns c.tc (st0_0 t) fullShare ((dat0 V c).after 0 t)
        ∗ owns c.tc (st0_1 t) fullShare ((dat0 V c).after 1 t)
        ∗ owns c.tc (st0_2 t) fullShare ((dat0 V c).after 2 t)
        ∗ owns c.tc (st0_3 t) fullShare ((dat0 V c).after 3 t)) := by
  simp only [(before0_in V c t).1, (before0_in V c t).2.1, (before0_in V c t).2.2]
  dsimp only [dat0]
  iintro ⟨HΦ, Ho, ⟨%d0, H0⟩, ⟨%d1, H1⟩, ⟨%d2, H2⟩, ⟨%d3, H3⟩⟩
  iapply (sound_kernel0 c _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.Reg1KI.lean ====
import proofs.«401547_j83227876262380_2_alg».proof.Proof.LaunchKI
import proofs.«401547_j83227876262380_2_alg».proof.Proof.Gen.KernelIdeal.Skeleton
import proofs.«401547_j83227876262380_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x32 := Rect.unit (s := S2000x32) ![0, 0] S2000x32.size inb_S2000x32_S2000x32_0_0
abbrev r1_1 : Rect S32x32 := Rect.unit (s := S32x32) ![0, 0] S32x32.size inb_S32x32_S32x32_0_0
abbrev r1_2 : Rect S1x32 := Rect.unit (s := S1x32) ![0, 0] S1x32.size inb_S1x32_S1x32_0_0

def out1_3 (x0 : Vec F S2000x32 .f32) (x1 : Vec F S32x32 .f32) (x2 : Vec F S1x32 .f32) : Vec F S2000x32 .f32 :=
  View.canon [⟨r1_0, k1_pay1 (View.ld x0 r1_0) (View.ld x1 r1_1) (View.ld x2 r1_2)⟩]

set_option maxHeartbeats 1000000 in
theorem sound_kernel1 (c : Dev nD) (i : grid1.Coords) (a1 h1 a2 h2 a3 h3 a4 h4) (x0 x1 x2) (K : PUnit → sProp 𝕄) :
    iprop(owns c.tc a1 fullShare x0 ∗ owns c.tc a2 fullShare x1 ∗ owns c.tc a3 fullShare x2 ∗ (∃ d, owns c.tc a4 fullShare d)
        ∗ (iprop(owns c.tc a1 fullShare x0 ∗ owns c.tc a2 fullShare x1 ∗ owns c.tc a3 fullShare x2 ∗ owns c.tc a4 fullShare (out1_3 x0 x1 x2)) -∗ K ⟨⟩))
      ⊢ wp frame (wpE (defs₀ (F := F)) Variants.none c none) Set.univ (cc1__gcn_layer_kernel i a1 h1 a2 h2 a3 h3 a4 h4) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe H0 %hf0
  isplitl [H1]; · iexists f1; iframe H1 %hf1
  isplitl [H2]; · iexists f2; iframe H2 %hf2
  iexists _; iframe H3
  ipureintro; subst hf0 hf1 hf2
  exact View.read_writes_eq_canon _ _ _ (View.cover_of_tiled _ S2000x32.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = out1_3 (iblk1 V c 0 t) (iblk1 V c 1 t) (iblk1 V c 2 t) := by dsimp only [dat1]

theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) := by
  refine ⟨?_, ?_, ?_⟩ <;> intro d <;> exact (dat1 V c).before_in_eq_fetched _ rfl (fun _ => rfl) (fun _ _ _ => rfl) (fun _ => rfl) t d

theorem sound_body1 (c : Dev nD) (t : Fin cfg1.N) :
    iprop((dat1 V c).Φ t.castSucc ∗ (dat1 V c).owesAt () t.castSucc
      ∗ (∃ d, owns c.tc (st1_0 t) fullShare ((dat1 V c).before 0 t d))
      ∗ (∃ d, owns c.tc (st1_1 t) fullShare ((dat1 V c).before 1 t d))
      ∗ (∃ d, owns c.tc (st1_2 t) fullShare ((dat1 V c).before 2 t d))
      ∗ (∃ d, owns c.tc (st1_3 t) fullShare ((dat1 V c).before 3 t d)))
    ⊢ wp frame (wpE (defs₀ (F := F)) Variants.none c none) Set.univ (bodyAt1 t) fun _ =>
      iprop((dat1 V c).Φ t.castSucc ∗ (dat1 V c).owesAt () t.castSucc
        ∗ owns c.tc (st1_0 t) fullShare ((dat1 V c).after 0 t)
        ∗ owns c.tc (st1_1 t) fullShare ((dat1 V c).after 1 t)
        ∗ owns c.tc (st1_2 t) fullShare ((dat1 V c).after 2 t)
        ∗ owns c.tc (st1_3 t) fullShare ((dat1 V c).after 3 t)) := by
  simp only [(before1_in V c t).1, (before1_in V c t).2.1, (before1_in V c t).2.2]
  dsimp only [dat1]
  iintro ⟨HΦ, Ho, ⟨%d0, H0⟩, ⟨%d1, H1⟩, ⟨%d2, H2⟩, ⟨%d3, H3⟩⟩
  iapply (sound_kernel1 c _ _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.Reg2KI.lean ====
import proofs.«401547_j83227876262380_2_alg».proof.Proof.LaunchKI
import proofs.«401547_j83227876262380_2_alg».proof.Proof.Gen.KernelIdeal.Skeleton
import proofs.«401547_j83227876262380_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x32 := Rect.unit (s := S2000x32) ![0, 0] S2000x32.size inb_S2000x32_S2000x32_0_0
abbrev r2_1 : Rect S32x32 := Rect.unit (s := S32x32) ![0, 0] S32x32.size inb_S32x32_S32x32_0_0
abbrev r2_2 : Rect S1x32 := Rect.unit (s := S1x32) ![0, 0] S1x32.size inb_S1x32_S1x32_0_0

def out2_3 (x0 : Vec F S2000x32 .f32) (x1 : Vec F S32x32 .f32) (x2 : Vec F S1x32 .f32) : Vec F S2000x32 .f32 :=
  View.canon [⟨r2_0, k2_pay1 (View.ld x0 r2_0) (View.ld x1 r2_1) (View.ld x2 r2_2)⟩]

set_option maxHeartbeats 1000000 in
theorem sound_kernel2 (c : Dev nD) (i : grid2.Coords) (a1 h1 a2 h2 a3 h3 a4 h4) (x0 x1 x2) (K : PUnit → sProp 𝕄) :
    iprop(owns c.tc a1 fullShare x0 ∗ owns c.tc a2 fullShare x1 ∗ owns c.tc a3 fullShare x2 ∗ (∃ d, owns c.tc a4 fullShare d)
        ∗ (iprop(owns c.tc a1 fullShare x0 ∗ owns c.tc a2 fullShare x1 ∗ owns c.tc a3 fullShare x2 ∗ owns c.tc a4 fullShare (out2_3 x0 x1 x2)) -∗ K ⟨⟩))
      ⊢ wp frame (wpE (defs₀ (F := F)) Variants.none c none) Set.univ (cc2__gcn_layer_kernel i a1 h1 a2 h2 a3 h3 a4 h4) K := by
  simp only [cc2__gcn_layer_kernel_eq_skeleton]; unfold cc2__gcn_layer_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe H0 %hf0
  isplitl [H1]; · iexists f1; iframe H1 %hf1
  isplitl [H2]; · iexists f2; iframe H2 %hf2
  iexists _; iframe H3
  ipureintro; subst hf0 hf1 hf2
  exact View.read_writes_eq_canon _ _ _ (View.cover_of_tiled _ S2000x32.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = out2_3 (iblk2 V c 0 t) (iblk2 V c 1 t) (iblk2 V c 2 t) := by dsimp only [dat2]

theorem before2_in (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) := by
  refine ⟨?_, ?_, ?_⟩ <;> intro d <;> exact (dat2 V c).before_in_eq_fetched _ rfl (fun _ => rfl) (fun _ _ _ => rfl) (fun _ => rfl) t d

theorem sound_body2 (c : Dev nD) (t : Fin cfg2.N) :
    iprop((dat2 V c).Φ t.castSucc ∗ (dat2 V c).owesAt () t.castSucc
      ∗ (∃ d, owns c.tc (st2_0 t) fullShare ((dat2 V c).before 0 t d))
      ∗ (∃ d, owns c.tc (st2_1 t) fullShare ((dat2 V c).before 1 t d))
      ∗ (∃ d, owns c.tc (st2_2 t) fullShare ((dat2 V c).before 2 t d))
      ∗ (∃ d, owns c.tc (st2_3 t) fullShare ((dat2 V c).before 3 t d)))
    ⊢ wp frame (wpE (defs₀ (F := F)) Variants.none c none) Set.univ (bodyAt2 t) fun _ =>
      iprop((dat2 V c).Φ t.castSucc ∗ (dat2 V c).owesAt () t.castSucc
        ∗ owns c.tc (st2_0 t) fullShare ((dat2 V c).after 0 t)
        ∗ owns c.tc (st2_1 t) fullShare ((dat2 V c).after 1 t)
        ∗ owns c.tc (st2_2 t) fullShare ((dat2 V c).after 2 t)
        ∗ owns c.tc (st2_3 t) fullShare ((dat2 V c).after 3 t)) := by
  simp only [(before2_in V c t).1, (before2_in V c t).2.1, (before2_in V c t).2.2]
  dsimp only [dat2]
  iintro ⟨HΦ, Ho, ⟨%d0, H0⟩, ⟨%d1, H1⟩, ⟨%d2, H2⟩, ⟨%d3, H3⟩⟩
  iapply (sound_kernel2 c _ _ _ _ _ _ _ _ _ (iblk2 V c 0 t) (iblk2 V c 1 t) (iblk2 V c 2 t) _)
  iframe H0 H1 H2
  isplitl [H3]; · iexists _; iexact H3
  iintro ⟨H0, H1, H2, H3⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.Reg3KI.lean ====
import proofs.«401547_j83227876262380_2_alg».proof.Proof.LaunchKI
import proofs.«401547_j83227876262380_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a3 : (pcfg3 (F := F)).Adm)
variable (V : (c : Dev nD) → (b : Ref sig .tc) → Buf (Elt F) ((c : Thread nD τ).loc b))

abbrev stg3 (a : (pcfg3 (F := F)).Adm) (t : Fin (cfg3 a).N) (w : Fin (cfg3 a).W) := ((cfg3 a).win w).stage ((cfg3 a).slots t w)

abbrev bodyAt3 (a : (pcfg3 (F := F)).Adm) (t : Fin (cfg3 a).N) : Prog (TpuEff nD τ sig (Elt F) Λ₀ .tc) PUnit :=
  cc3__gather_kernel (grid3.coords t) (Memref.whole main_arg24) (Memref.isWhole_whole _) (Memref.whole main_arg25) (Memref.isWhole_whole _)
    (stg3 a t 0) (stage_whole3 0 _) (stg3 a t 1) (stage_whole3 1 _) (stg3 a t 2) (stage_whole3 2 _) (stg3 a t 3) (stage_whole3 3 _)

def iblk3 (c : Dev nD) (w : Fin (cfg3 a3).W) (t : Fin (cfg3 a3).N) : (((cfg3 a3).win w).xblock ((cfg3 a3).grid.coords t)).Idx → Elt F ((cfg3 a3).win w).elt :=
  (((cfg3 a3).win w).blk t).view.read (Elt F) (V c (Pipeline.arrRef spec3 w))

abbrev r3_0 : Rect S1x1x128 := Rect.unit (s := S1x1x128) ![0, 0, 0] S1x1x128.size inb_S1x1x128_S1x1x128_0_0_0

def out3_2 (x0 : Vec F S1x1x128 .f32) : Vec F S1x1x128 .f32 :=
  View.canon [⟨r3_0, k3_pay1 (View.ld x0 r3_0)⟩]

def out3_3 (x1 : Vec F S1x1x128 .f32) : Vec F S1x1x128 .f32 :=
  View.canon [⟨r3_0, k3_pay2 (View.ld x1 r3_0)⟩]

abbrev tabs3 (c : Dev nD) : sProp 𝕄 :=
  Pipeline.prefHeld (Ix := Unit) (Name := ℕ) (U := UR sig nD τ) (Lvl := ℕ) pre3 c (fun _ => fullShare) a3.1

def dat3 (c : Dev nD) : Dat τ (Elt F) Unit ℕ (UR sig nD τ) ℕ (cfg3 a3) c where
  A w := V c (Pipeline.arrRef spec3 w)
  after w t := match w with
    | ⟨0, _⟩ => iblk3 a3 V c 0 t
    | ⟨1, _⟩ => iblk3 a3 V c 1 t
    | ⟨2, _⟩ => out3_2 (iblk3 a3 V c 0 t)
    | ⟨3, _⟩ => out3_3 (iblk3 a3 V c 1 t)
  Φ _ := iprop(Pipeline.ΦA spec3 c ∗ tabs3 a3 c)
  q w := match w with
    | ⟨0, _⟩ => fullShare.left
    | ⟨1, _⟩ => fullShare.right
    | ⟨2, _⟩ => fullShare
    | ⟨3, _⟩ => fullShare
  owed _ := 0

theorem A_eq3 (c : Dev nD) (w : Fin (cfg3 a3).W) : (dat3 a3 V c).A w = V c (Pipeline.arrRef spec3 w) := by
  dsimp only [dat3]

theorem after3_0 (c : Dev nD) (t : Fin (cfg3 a3).N) : (dat3 a3 V c).after 0 t = iblk3 a3 V c 0 t := by dsimp only [dat3]; try rfl
theorem after3_1 (c : Dev nD) (t : Fin (cfg3 a3).N) : (dat3 a3 V c).after 1 t = iblk3 a3 V c 1 t := by dsimp only [dat3]; try rfl
theorem after3_2 (c : Dev nD) (t : Fin (cfg3 a3).N) : (dat3 a3 V c).after 2 t = out3_2 (iblk3 a3 V c 0 t) := by dsimp only [dat3]; try rfl
theorem after3_3 (c : Dev nD) (t : Fin (cfg3 a3).N) : (dat3 a3 V c).after 3 t = out3_3 (iblk3 a3 V c 1 t) := by dsimp only [dat3]; try rfl

theorem Phi3_in (c : Dev nD) :
    iprop((∃ r, prngReg c r) ∗ Pipeline.prefHeld (Ix := Unit) (Name := ℕ) (U := UR sig nD τ) (Lvl := ℕ) pre3 c (fun _ => fullShare) a3.1
        ∗ Pipeline.scopedRest (Ix := Unit) (Name := ℕ) (U := UR sig nD τ) (Lvl := ℕ) (Val := Elt F) spec3 c)
      ⊢ (dat3 a3 V c).Φ 0 := by
  dsimp only [dat3, Pipeline.ΦA]
  iintro ⟨Hp, Ht, Hr⟩
  iframe

theorem Phi3_out (c : Dev nD) :
    (dat3 a3 V c).Φ (Fin.last (cfg3 a3).N)
      ⊢ iprop(((∃ r, prngReg c r) ∗ Pipeline.prefHeld (Ix := Unit) (Name := ℕ) (U := UR sig nD τ) (Lvl := ℕ) pre3 c (fun _ => fullShare) a3.1)
        ∗ Pipeline.ownSems0 (fun k : PEmpty => k.elim) c
        ∗ Pipeline.scopedRest (Ix := Unit) (Name := ℕ) (U := UR sig nD τ) (Lvl := ℕ) (Val := Elt F) spec3 c) := by
  rw [Pipeline.ownSems0_none]; dsimp only [dat3, Pipeline.ΦA]
  iintro ⟨⟨Hr, Hp⟩, Ht⟩
  iframe <;> iempintro

theorem before3 (c : Dev nD) (w : Fin (cfg3 a3).W) (hw : w = 0 ∨ w = 1) (t : Fin (cfg3 a3).N) (d) : (dat3 a3 V c).before w t d = iblk3 a3 V c w t := by
  rcases hw with rfl | rfl <;>
  exact ((dat3 a3 V c).before_in_eq_fetched _ rfl (fun _ => rfl) (fun _ _ _ => rfl) (fun t => by simp only [after3_0, after3_1]; unfold Dat.blockOf iblk3; rw [A_eq3]; try rfl) t d).trans
    (by unfold Dat.fetched Dat.blockOf iblk3; rw [A_eq3]; try rfl)

abbrev in3 (c : Dev nD) (t : Fin (cfg3 a3).N) (w : Fin (cfg3 a3).W) : sProp 𝕄 :=
  iprop(∃ d, owns (c : Thread nD τ) (stg3 a3 t w) fullShare ((dat3 a3 V c).before w t d))

abbrev out3 (c : Dev nD) (t : Fin (cfg3 a3).N) (w : Fin (cfg3 a3).W) : sProp 𝕄 :=
  owns (c : Thread nD τ) (stg3 a3 t w) fullShare ((dat3 a3 V c).after w t)

theorem sound_body3 (c : Dev nD) (t : Fin (cfg3 a3).N) :
    iprop((dat3 a3 V c).Φ t.castSucc ∗ (dat3 a3 V c).owesAt () t.castSucc ∗ in3 a3 V c t 0 ∗ in3 a3 V c t 1 ∗ in3 a3 V c t 2 ∗ in3 a3 V c t 3)
      ⊢ wp frame (wpE (defs₀ (F := F)) Variants.none c none) Set.univ (bodyAt3 a3 t) fun _ =>
        iprop((dat3 a3 V c).Φ t.succ ∗ (dat3 a3 V c).owesAt () t.succ ∗ out3 a3 V c t 0 ∗ out3 a3 V c t 1 ∗ out3 a3 V c t 2 ∗ out3 a3 V c t 3) := by
  simp only [in3, out3, bodyAt3, before3 a3 V c 0 (.inl rfl), before3 a3 V c 1 (.inr rfl), after3_0, after3_1, after3_2, after3_3, cc3__gather_kernel_eq_skeleton]
  unfold cc3__gather_kernel_skel owns
  rw [show (dat3 a3 V c).Φ t.succ = (dat3 a3 V c).Φ t.castSucc from rfl,
    show (dat3 a3 V c).owesAt () t.succ = (dat3 a3 V c).owesAt () t.castSucc from rfl]
  iintro ⟨HΦ, Ho, ⟨%d0, %f0, %hf0, H0⟩, ⟨%d1, %f1, %hf1, H1⟩, ⟨%d2, %f2, -, H2⟩, ⟨%d3, %f3, -, H3⟩⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists _; isplitr
    swap; · iexact H2
    ipureintro
    exact (View.read_writes_eq_canon _ _ _ (View.cover_of_tiled _ S1x1x128.size (by rfl))).trans (congrArg out3_2 hf0)
  iexists _; isplitr
  swap; · iexact H3
  ipureintro
  exact (View.read_writes_eq_canon _ _ _ (View.cover_of_tiled _ S1x1x128.size (by rfl))).trans (congrArg out3_3 hf1)

theorem body_obligation3 (c : Dev nD) : BodyObligation (dat3 (F := F) a3 V c) (defs₀ (F := F)) Variants.none () Set.univ := fun t => by
  rw [bigSep_W3, bigSep_W3]
  exact sound_body3 a3 V c t

end Cert.KernelIdeal.Hand

end
-- ==== Proof.Reg4KI.lean ====
import proofs.«401547_j83227876262380_2_alg».proof.Proof.LaunchKI
import proofs.«401547_j83227876262380_2_alg».proof.Proof.RegionsKI
import proofs.«401547_j83227876262380_2_alg».proof.Proof.Gen.KernelIdeal.Skeleton
import proofs.«401547_j83227876262380_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2048x128 := Rect.unit (s := S2048x128) ![0, 0] S2048x128.size inb_S2048x128_S2048x128_0_0
abbrev r4_1 : Rect S128x64 := Rect.unit (s := S128x64) ![0, 0] S128x64.size inb_S128x64_S128x64_0_0
abbrev r4_2 : Rect S1x64 := Rect.unit (s := S1x64) ![0, 0] S1x64.size inb_S1x64_S1x64_0_0
abbrev r4_3 : Rect S64x32 := Rect.unit (s := S64x32) ![0, 0] S64x32.size inb_S64x32_S64x32_0_0
abbrev r4_4 : Rect S1x32 := Rect.unit (s := S1x32) ![0, 0] S1x32.size inb_S1x32_S1x32_0_0
abbrev r4_5 : Rect S32x16 := Rect.unit (s := S32x16) ![0, 0] S32x16.size inb_S32x16_S32x16_0_0
abbrev r4_6 : Rect S1x16 := Rect.unit (s := S1x16) ![0, 0] S1x16.size inb_S1x16_S1x16_0_0
abbrev r4_7 : Rect S16x1 := Rect.unit (s := S16x1) ![0, 0] S16x1.size inb_S16x1_S16x1_0_0
abbrev r4_8 : Rect S1x1 := Rect.unit (s := S1x1) ![0, 0] S1x1.size inb_S1x1_S1x1_0_0
abbrev r4_9 : Rect S2048x1 := Rect.unit (s := S2048x1) ![0, 0] S2048x1.size inb_S2048x1_S2048x1_0_0

/-- The output after the body: its one whole store, of the payload computed from the sixteen blocks read. -/
def out4_16 (x0 : Vec F S2048x128 .f32) (x1 : Vec F S2048x128 .f32) (x2 : Vec F S128x64 .f32) (x3 : Vec F S1x64 .f32) (x4 : Vec F S64x32 .f32) (x5 : Vec F S1x32 .f32) (x6 : Vec F S128x64 .f32) (x7 : Vec F S1x64 .f32) (x8 : Vec F S64x32 .f32) (x9 : Vec F S1x32 .f32) (x10 : Vec F S64x32 .f32) (x11 : Vec F S1x32 .f32) (x12 : Vec F S32x16 .f32) (x13 : Vec F S1x16 .f32) (x14 : Vec F S16x1 .f32) (x15 : Vec F S1x1 .f32) : Vec F S2048x1 .f32 :=
  View.canon [⟨r4_9, k4_pay3 (k4_pay1 (View.ld x0 r4_0) (View.ld x2 r4_1) (View.ld x3 r4_2) (View.ld x4 r4_3) (View.ld x5 r4_4)) (k4_pay2 (View.ld x1 r4_0) (View.ld x6 r4_1) (View.ld x7 r4_2)) (View.ld x8 r4_3) (View.ld x9 r4_4) (View.ld x10 r4_3) (View.ld x11 r4_4) (View.ld x12 r4_5) (View.ld x13 r4_6) (View.ld x14 r4_7) (View.ld x15 r4_8)⟩]

set_option maxHeartbeats 1000000 in
/-- The body reads its sixteen inputs whole and writes its output once, whole: every input is left as found. -/
theorem sound_kernel4 (c : Dev nD) (E : Set ℕ) (i : grid4.Coords) (arg1 : Memref sig .tc .vmem S2048x128 .f32) (harg1 : arg1.IsWhole) (arg2 : Memref sig .tc .vmem S2048x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x32 .f32) (harg9 : arg9.IsWhole) (arg10 : Memref sig .tc .vmem S1x32 .f32) (harg10 : arg10.IsWhole) (arg11 : Memref sig .tc .vmem S64x32 .f32) (harg11 : arg11.IsWhole) (arg12 : Memref sig .tc .vmem S1x32 .f32) (harg12 : arg12.IsWhole) (arg13 : Memref sig .tc .vmem S32x16 .f32) (harg13 : arg13.IsWhole) (arg14 : Memref sig .tc .vmem S1x16 .f32) (harg14 : arg14.IsWhole) (arg15 : Memref sig .tc .vmem S16x1 .f32) (harg15 : arg15.IsWhole) (arg16 : Memref sig .tc .vmem S1x1 .f32) (harg16 : arg16.IsWhole) (arg17 : Memref sig .tc .vmem S2048x1 .f32) (harg17 : arg17.IsWhole)
    (x0 : Vec F S2048x128 .f32) (x1 : Vec F S2048x128 .f32) (x2 : Vec F S128x64 .f32) (x3 : Vec F S1x64 .f32) (x4 : Vec F S64x32 .f32) (x5 : Vec F S1x32 .f32) (x6 : Vec F S128x64 .f32) (x7 : Vec F S1x64 .f32) (x8 : Vec F S64x32 .f32) (x9 : Vec F S1x32 .f32) (x10 : Vec F S64x32 .f32) (x11 : Vec F S1x32 .f32) (x12 : Vec F S32x16 .f32) (x13 : Vec F S1x16 .f32) (x14 : Vec F S16x1 .f32) (x15 : Vec F S1x1 .f32) (d : Vec F S2048x1 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ owns c arg16 fullShare x15 ∗ owns c arg17 fullShare d
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ owns c arg16 fullShare x15 ∗ owns c arg17 fullShare (out4_16 x0 x1 x2 x3 x4 x5 x6 x7 x8 x9 x10 x11 x12 x13 x14 x15)) -∗ K ⟨⟩))
      ⊢ wp frame (wpE (defs₀ (F := F)) Variants.none c none) E (cc4__batch_mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc4__batch_mlp_kernel_eq_skeleton]; unfold cc4__batch_mlp_kernel_skel
  simp only [k4_part1_eq_skeleton]; unfold k4_part1_skel
  simp only [k4_part2_eq_skeleton]; unfold k4_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, -, H16⟩, Hk⟩
  subst hf0 hf1 hf2 hf3 hf4 hf5 hf6 hf7 hf8 hf9 hf10 hf11 hf12 hf13 hf14 hf15
  sl_exec
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap; isplitl [H14]; swap; isplitl [H15]; swap
  all_goals (iexists _; isplitr; swap; iassumption; ipureintro)
  on_goal 1 => exact View.read_writes_eq_canon _ _ _ (View.cover_of_tiled _ S2048x1.size (by rfl))
  all_goals rfl

/-- The region's proof data: every input window keeps its block, the output window takes `out4_16` of the blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => out4_16 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t)
    | ⟨_ + 17, h⟩ => absurd h (Nat.not_lt.2 (Nat.le_add_left _ _))
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_16 (c : Dev nD) (t : Fin cfg4.N) : (dat4 V c).after 16 t = out4_16 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) := by dsimp only [dat4]

/-- Before the body an input window already holds what the body leaves in it: the body only reads it. -/
theorem before4_0 (c : Dev nD) (t : Fin cfg4.N) (d) : (dat4 V c).before 0 t d = (dat4 V c).after 0 t :=
  ((dat4 V c).before_in_eq_fetched _ rfl (fun _ => rfl) (fun _ _ _ => rfl) (fun _ => rfl) t d).trans rfl
theorem before4_1 (c : Dev nD) (t : Fin cfg4.N) (d) : (dat4 V c).before 1 t d = (dat4 V c).after 1 t :=
  ((dat4 V c).before_in_eq_fetched _ rfl (fun _ => rfl) (fun _ _ _ => rfl) (fun _ => rfl) t d).trans rfl
theorem before4_2 (c : Dev nD) (t : Fin cfg4.N) (d) : (dat4 V c).before 2 t d = (dat4 V c).after 2 t :=
  ((dat4 V c).before_in_eq_fetched _ rfl (fun _ => rfl) (fun _ _ _ => rfl) (fun _ => rfl) t d).trans rfl
theorem before4_3 (c : Dev nD) (t : Fin cfg4.N) (d) : (dat4 V c).before 3 t d = (dat4 V c).after 3 t :=
  ((dat4 V c).before_in_eq_fetched _ rfl (fun _ => rfl) (fun _ _ _ => rfl) (fun _ => rfl) t d).trans rfl
theorem before4_4 (c : Dev nD) (t : Fin cfg4.N) (d) : (dat4 V c).before 4 t d = (dat4 V c).after 4 t :=
  ((dat4 V c).before_in_eq_fetched _ rfl (fun _ => rfl) (fun _ _ _ => rfl) (fun _ => rfl) t d).trans rfl
theorem before4_5 (c : Dev nD) (t : Fin cfg4.N) (d) : (dat4 V c).before 5 t d = (dat4 V c).after 5 t :=
  ((dat4 V c).before_in_eq_fetched _ rfl (fun _ => rfl) (fun _ _ _ => rfl) (fun _ => rfl) t d).trans rfl
theorem before4_6 (c : Dev nD) (t : Fin cfg4.N) (d) : (dat4 V c).before 6 t d = (dat4 V c).after 6 t :=
  ((dat4 V c).before_in_eq_fetched _ rfl (fun _ => rfl) (fun _ _ _ => rfl) (fun _ => rfl) t d).trans rfl
theorem before4_7 (c : Dev nD) (t : Fin cfg4.N) (d) : (dat4 V c).before 7 t d = (dat4 V c).after 7 t :=
  ((dat4 V c).before_in_eq_fetched _ rfl (fun _ => rfl) (fun _ _ _ => rfl) (fun _ => rfl) t d).trans rfl
theorem before4_8 (c : Dev nD) (t : Fin cfg4.N) (d) : (dat4 V c).before 8 t d = (dat4 V c).after 8 t :=
  ((dat4 V c).before_in_eq_fetched _ rfl (fun _ => rfl) (fun _ _ _ => rfl) (fun _ => rfl) t d).trans rfl
theorem before4_9 (c : Dev nD) (t : Fin cfg4.N) (d) : (dat4 V c).before 9 t d = (dat4 V c).after 9 t :=
  ((dat4 V c).before_in_eq_fetched _ rfl (fun _ => rfl) (fun _ _ _ => rfl) (fun _ => rfl) t d).trans rfl
theorem before4_10 (c : Dev nD) (t : Fin cfg4.N) (d) : (dat4 V c).before 10 t d = (dat4 V c).after 10 t :=
  ((dat4 V c).before_in_eq_fetched _ rfl (fun _ => rfl) (fun _ _ _ => rfl) (fun _ => rfl) t d).trans rfl
theorem before4_11 (c : Dev nD) (t : Fin cfg4.N) (d) : (dat4 V c).before 11 t d = (dat4 V c).after 11 t :=
  ((dat4 V c).before_in_eq_fetched _ rfl (fun _ => rfl) (fun _ _ _ => rfl) (fun _ => rfl) t d).trans rfl
theorem before4_12 (c : Dev nD) (t : Fin cfg4.N) (d) : (dat4 V c).before 12 t d = (dat4 V c).after 12 t :=
  ((dat4 V c).before_in_eq_fetched _ rfl (fun _ => rfl) (fun _ _ _ => rfl) (fun _ => rfl) t d).trans rfl
theorem before4_13 (c : Dev nD) (t : Fin cfg4.N) (d) : (dat4 V c).before 13 t d = (dat4 V c).after 13 t :=
  ((dat4 V c).before_in_eq_fetched _ rfl (fun _ => rfl) (fun _ _ _ => rfl) (fun _ => rfl) t d).trans rfl
theorem before4_14 (c : Dev nD) (t : Fin cfg4.N) (d) : (dat4 V c).before 14 t d = (dat4 V c).after 14 t :=
  ((dat4 V c).before_in_eq_fetched _ rfl (fun _ => rfl) (fun _ _ _ => rfl) (fun _ => rfl) t d).trans rfl
theorem before4_15 (c : Dev nD) (t : Fin cfg4.N) (d) : (dat4 V c).before 15 t d = (dat4 V c).after 15 t :=
  ((dat4 V c).before_in_eq_fetched _ rfl (fun _ => rfl) (fun _ _ _ => rfl) (fun _ => rfl) t d).trans rfl

/-- At every point the inputs are the blocks, so the body's triple applies; the invariant and the owed tallies pass through unread. -/
theorem body_obligation4 (c : Dev nD) : BodyObligation (dat4 (F := F) V c) (defs₀ (F := F)) Variants.none () Set.univ := fun t => by
  rw [bigSep_W4, bigSep_W4]
  dsimp only
  simp only [before4_0, before4_1, before4_2, before4_3, before4_4, before4_5, before4_6, before4_7, before4_8, before4_9, before4_10, before4_11, before4_12, before4_13, before4_14, before4_15]
  rw [show (dat4 V c).owesAt () t.succ = (dat4 V c).owesAt () t.castSucc from rfl]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel4 c Set.univ (grid4.coords t) _ _ _ _ _ _ _ _ _ _ _ _ _ _ _ _ _ _ _ _ _ _ _ _ _ _ _ _ _ _ _ _ _ _ _ _ _ _ _ _ _ _ _ _ _ _ _ _ _ _ _ _)
  iframe
  iintro H; iexact H

end Cert.KernelIdeal.Hand

end
-- ==== Proof.RunKI.lean ====
import proofs.«401547_j83227876262380_2_alg».proof.Proof.RunCondKI
import proofs.«401547_j83227876262380_2_alg».proof.Proof.Reg0KI
import proofs.«401547_j83227876262380_2_alg».proof.Proof.Reg1KI
import proofs.«401547_j83227876262380_2_alg».proof.Proof.Reg2KI
import proofs.«401547_j83227876262380_2_alg».proof.Proof.Reg3KI
import proofs.«401547_j83227876262380_2_alg».proof.Proof.Reg4KI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a3 : (pcfg3 (F := F)).Adm)

abbrev rd (W : Dev nD → Valuation τ sig (Elt F)) : (c : Dev nD) → (b : Ref sig .tc) → Buf (Elt F) ((c : Thread nD τ).loc b) :=
  fun c b => W c b

def o2 (c : Dev nD) : Buf (Elt F) ((c : Thread nD τ).loc main_v14) := (dat0 (rd (V1 m)) c).arrAt 3 cfg0.N
def outs2 : Outs (F := F) := fun j r c => match j with
  | 2 => Function.update (V0 m c) main_v14 (o2 m c) r
  | _ => V0 m c r
def o4 (c : Dev nD) : Buf (Elt F) ((c : Thread nD τ).loc main_v29) := (dat1 (rd (V3 m (outs2 m))) c).arrAt 3 cfg1.N
def outs4 : Outs (F := F) := fun j r c => match j with
  | 2 => Function.update (V0 m c) main_v14 (o2 m c) r
  | 4 => Function.update (V0 m c) main_v29 (o4 m c) r
  | _ => V0 m c r
def o6 (c : Dev nD) : Buf (Elt F) ((c : Thread nD τ).loc main_v44) := (dat2 (rd (V5 m (outs4 m))) c).arrAt 3 cfg2.N
def outs6 : Outs (F := F) := fun j r c => match j with
  | 2 => Function.update (V0 m c) main_v14 (o2 m c) r
  | 4 => Function.update (V0 m c) main_v29 (o4 m c) r
  | 6 => Function.update (V0 m c) main_v44 (o6 m c) r
  | _ => V0 m c r
def o8a (c : Dev nD) : Buf (Elt F) ((c : Thread nD τ).loc main_v47_0) := (dat3 a3 (rd (V7 m (outs6 m))) c).arrAt 2 (cfg3 a3).N
def o8b (c : Dev nD) : Buf (Elt F) ((c : Thread nD τ).loc main_v47_1) := (dat3 a3 (rd (V7 m (outs6 m))) c).arrAt 3 (cfg3 a3).N
def outs8 : Outs (F := F) := fun j r c => match j with
  | 2 => Function.update (V0 m c) main_v14 (o2 m c) r
  | 4 => Function.update (V0 m c) main_v29 (o4 m c) r
  | 6 => Function.update (V0 m c) main_v44 (o6 m c) r
  | 8 => Function.update (Function.update (V0 m c) main_v47_0 (o8a m a3 c)) main_v47_1 (o8b m a3 c) r
  | _ => V0 m c r
def o10 (c : Dev nD) : Buf (Elt F) ((c : Thread nD τ).loc main_v57) := (dat4 (rd (V9 m (outs8 m a3))) c).arrAt 16 cfg4.N
def outs10 : Outs (F := F) := fun j r c => match j with
  | 2 => Function.update (V0 m c) main_v14 (o2 m c) r
  | 4 => Function.update (V0 m c) main_v29 (o4 m c) r
  | 6 => Function.update (V0 m c) main_v44 (o6 m c) r
  | 8 => Function.update (Function.update (V0 m c) main_v47_0 (o8a m a3 c)) main_v47_1 (o8b m a3 c) r
  | 10 => Function.update (V0 m c) main_v57 (o10 m a3 c) r
  | _ => V0 m c r

def adm : (p : Fin 5) → (pcfgs (F := F) p).Adm
  | ⟨0, _⟩ => cfg0.toPCfg_adm
  | ⟨1, _⟩ => cfg1.toPCfg_adm
  | ⟨2, _⟩ => cfg2.toPCfg_adm
  | ⟨3, _⟩ => a3
  | ⟨4, _⟩ => cfg4.toPCfg_adm

def pdats : (p : Fin 5) → (c : Dev nD) → Dat τ (Elt F) Unit ℕ (UR sig nD τ) ℕ (Pipeline.pin (pcfgs (F := F)) (adm a3) p) c
  | ⟨0, _⟩ => fun c => dat0 (rd (V1 m)) c
  | ⟨1, _⟩ => fun c => dat1 (rd (V3 m (outs2 m))) c
  | ⟨2, _⟩ => fun c => dat2 (rd (V5 m (outs4 m))) c
  | ⟨3, _⟩ => fun c => dat3 a3 (rd (V7 m (outs6 m))) c
  | ⟨4, _⟩ => fun c => dat4 (rd (V9 m (outs8 m a3))) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- A pipeline without prefetched tables holds none. -/
theorem noTables (pre : Pipeline.Prefetch sig) (h : pre.K = 0) (c : Dev nD) (V : pre.Contents (Elt F)) :
    (BI.emp : sProp 𝕄) ⊢ Pipeline.prefHeld pre c (fun _ => fullShare) V := by
  unfold Pipeline.prefHeld
  have : IsEmpty (Fin pre.K) := h ▸ Fin.isEmpty'
  rw [Finset.univ_eq_empty, BI.bigSep_empty]

set_option backward.isDefEq.respectTransparency.types false in
/-- A region with no table and no semaphore of its own, between two valuations that differ at its one output array only. -/
def plainSeg (p : Fin 5) (lf : Pipeline.PLaunchFacts (nD := nD) (τ := τ) (pcfgs (F := F)) p)
    (Vi Vo : Dev nD → Valuation τ sig (Elt F)) (wo : Fin (Pipeline.pin (pcfgs (F := F)) (adm a3) p).W)
    (hbody : ∀ c, BodyObligation (pdats m a3 p c) (defs₀ (F := F)) 𝒱₀ () Set.univ)
    (hout : ∀ c, (pdats m a3 p c).arrAt wo (Pipeline.pin (pcfgs (F := F)) (adm a3) p).N = Vo c (Pipeline.arrRef (pcfgs (F := F) p).spec wo))
    (hkeep : ∀ c b, b ∉ [Pipeline.arrRef (pcfgs (F := F) p).spec wo] → Vo c b = Vi c b)
    (hin : ∀ w, w ≠ wo → ((Pipeline.pin (pcfgs (F := F)) (adm a3) p).win w).isOut = false)
    (hpf : ∀ c, (BI.emp : sProp 𝕄) ⊢ Pipeline.prefHeld (pcfgs (F := F) p).pre c (fun _ => fullShare) (adm a3 p).1)
    (hA : ∀ c w, (pdats m a3 p c).A w = Vi c (Pipeline.arrRef (pcfgs (F := F) p).spec w))
    (hΦ : ∀ c t, (pdats m a3 p c).Φ t = Pipeline.ΦA (pcfgs (F := F) p).spec c)
    (howed : ∀ c t, (pdats m a3 p c).owed t = 0) (hrec : ∀ c x, x ∈ (pdats m a3 p c).recorded 0)
    (hq : ∀ c w, (pdats m a3 p c).q w = fullShare) :
    Pipeline.RegionSeg (pcfgs (F := F)) (adm a3) (pdats m a3) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (rd Vi c)
  hentry c := by
    unfold Pipeline.Dat.owesAt; rw [Pipeline.ownSems0_none, howed c 0]
    have hsplit := Pipeline.arrays_of_unscopedBufs (p := p) (pcfgs (F := F)) (adm a3) (pdats m a3) lf.win lf.arr_whole c
      ((pdats m a3 p c).share_full (hq c)) (rd Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (hpf c); iempintro
    isplitl [HO]
    · unfold Pipeline.owesWithin
      icases HO with ⟨%W, HO⟩; iexists W; isplitr; · ipureintro; exact fun _ _ => Or.inl (hrec c _)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    unfold Pipeline.Dat.owesAt; rw [howed c (Fin.last _)]
    have hjoin := Pipeline.unscopedBufs_of_arrays (p := p) (pcfgs (F := F)) (adm a3) (Ix := Unit) (Name := ℕ) (U := UR sig nD τ) (Lvl := ℕ)
      lf.win lf.arr_whole c (pdats m a3) ((pdats m a3 p c).share_full (hq c))
      (rd Vi c) (rd Vo c) ((pdats m a3 p c).arrAt · (Pipeline.pin (pcfgs (F := F)) (adm a3) p).N)
      (fun w => if h : w = wo then h ▸ hout c else by
        rw [(pdats m a3 p c).arrAt_in w (hin w h), hA c w]
        exact (hkeep c _ fun e => h (lf.win.arr_inj (List.mem_singleton.mp e))).symm)
      (fun b hb => hkeep c b fun e => hb (Finset.mem_image.mpr ⟨wo, Finset.mem_univ _, (List.mem_singleton.mp e).symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.owesWithin
    icases HO with ⟨%W, -, HO⟩; iexists W; iexact HO

theorem V2_out0 (c : Dev nD) : rd (V2 m (outs2 m)) c main_v14 = o2 m c := by
  simp only [rd, V2, outs2, Function.update_self]
theorem V4_out1 (c : Dev nD) : rd (V4 m (outs4 m)) c main_v29 = o4 m c := by
  simp only [rd, V4, outs4, Function.update_self]
theorem V6_out2 (c : Dev nD) : rd (V6 m (outs6 m)) c main_v44 = o6 m c := by
  simp only [rd, V6, outs6, Function.update_self]
theorem V10_out4 (c : Dev nD) : rd (V10 m (outs10 m a3)) c main_v57 = o10 m a3 c := by
  simp only [rd, V10, outs10, Function.update_self]

def reg0 : Pipeline.RegionSeg (pcfgs (F := F)) (adm a3) (pdats m a3) () defs₀ 𝒱₀ L lv 0 :=
  plainSeg m a3 0 launch0 (V1 m) (V2 m (outs2 m)) 3 (fun c => body_obligation0 (rd (V1 m)) c) (fun c => (V2_out0 m c).symm)
    (V2_of m (outs2 m)) (show ∀ w : Fin cfg0.W, w ≠ 3 → (cfg0.win w).isOut = false by decide) (fun c => noTables _ rfl c _) (fun _ _ => rfl) (fun _ _ => rfl) (fun _ _ => rfl) (fun _ _ => trivial) (fun _ _ => rfl)
def reg1 : Pipeline.RegionSeg (pcfgs (F := F)) (adm a3) (pdats m a3) () defs₀ 𝒱₀ L lv 1 :=
  plainSeg m a3 1 launch1 (V3 m (outs2 m)) (V4 m (outs4 m)) 3 (fun c => body_obligation1 (rd (V3 m (outs2 m))) c) (fun c => (V4_out1 m c).symm)
    (V4_of m (outs4 m)) (show ∀ w : Fin cfg1.W, w ≠ 3 → (cfg1.win w).isOut = false by decide) (fun c => noTables _ rfl c _) (fun _ _ => rfl) (fun _ _ => rfl) (fun _ _ => rfl) (fun _ _ => trivial) (fun _ _ => rfl)
def reg2 : Pipeline.RegionSeg (pcfgs (F := F)) (adm a3) (pdats m a3) () defs₀ 𝒱₀ L lv 2 :=
  plainSeg m a3 2 launch2 (V5 m (outs4 m)) (V6 m (outs6 m)) 3 (fun c => body_obligation2 (rd (V5 m (outs4 m))) c) (fun c => (V6_out2 m c).symm)
    (V6_of m (outs6 m)) (show ∀ w : Fin cfg2.W, w ≠ 3 → (cfg2.win w).isOut = false by decide) (fun c => noTables _ rfl c _) (fun _ _ => rfl) (fun _ _ => rfl) (fun _ _ => rfl) (fun _ _ => trivial) (fun _ _ => rfl)
def reg4 : Pipeline.RegionSeg (pcfgs (F := F)) (adm a3) (pdats m a3) () defs₀ 𝒱₀ L lv 4 :=
  plainSeg m a3 4 launch4 (V9 m (outs8 m a3)) (V10 m (outs10 m a3)) 16 (fun c => body_obligation4 (rd (V9 m (outs8 m a3))) c) (fun c => (V10_out4 m a3 c).symm)
    (V10_of m (outs10 m a3)) (show ∀ w : Fin cfg4.W, w ≠ 16 → (cfg4.win w).isOut = false by decide) (fun c => noTables _ rfl c _) (fun _ _ => rfl) (fun _ _ => rfl) (fun _ _ => rfl) (fun _ _ => trivial) (fun _ _ => rfl)

end Cert.KernelIdeal.Hand

end
-- ==== Proof.Seg3KI.lean ====
import proofs.«401547_j83227876262380_2_alg».proof.Proof.Reg3KI

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a3 : (pcfg3 (F := F)).Adm) (V : (c : Dev nD) → (b : Ref sig .tc) → Buf (Elt F) ((c : Thread nD τ).loc b))

section Carve
variable (c : Dev nD) (B : (b : Ref sig .tc) → Buf (Elt F) ((c : Thread nD τ).loc b))

theorem seg3_sep_eq {P P' Q Q' : sProp 𝕄} (h : P = P') (h' : Q = Q') : iprop(P ∗ Q) = iprop(P' ∗ Q') := by rw [h, h']

theorem seg3_pt_set {ℓ : Loc nD τ sig} {I J : Finset (Idx ℓ)} (h : I = J) (q : PosShare TreeShare) (f : Buf (Elt F) ℓ) :
    ((ℓ ↦[I]{q} f) : sProp 𝕄) = (ℓ ↦[J]{q} f) := by rw [h]

-- The windows' arrays at the contents B of their buffers, one by one: the two input windows hold the halves of one buffer.
theorem seg3_arrays_eq :
    ((dat3 a3 V c).arrays (fun w => B (Pipeline.arrRef spec3 w)) : sProp 𝕄)
      = iprop((((c : Thread nD τ).loc main_v46) ↦{fullShare.left} B main_v46) ∗ (((c : Thread nD τ).loc main_v46) ↦{fullShare.right} B main_v46)
          ∗ (((c : Thread nD τ).loc main_v47_0) ↦{fullShare} B main_v47_0) ∗ (((c : Thread nD τ).loc main_v47_1) ↦{fullShare} B main_v47_1)) :=
  by
  unfold Dat.arrays
  refine (bigSep_W3 _).trans ?_
  exact seg3_sep_eq (seg3_pt_set (arr_whole3 0).set_eq_univ _ _) (seg3_sep_eq (seg3_pt_set (arr_whole3 1).set_eq_univ _ _) (seg3_sep_eq (seg3_pt_set (arr_whole3 2).set_eq_univ _ _) (seg3_pt_set (arr_whole3 3).set_eq_univ _ _)))

theorem seg3_arrBufs_eq :
    (Pipeline.arrBufs spec3 c B : sProp 𝕄)
      = iprop((((c : Thread nD τ).loc main_v46) ↦{fullShare} B main_v46) ∗ (((c : Thread nD τ).loc main_v47_0) ↦{fullShare} B main_v47_0)
          ∗ (((c : Thread nD τ).loc main_v47_1) ↦{fullShare} B main_v47_1)) := by
  unfold Pipeline.arrBufs
  rw [show Finset.univ.image (Pipeline.arrRef spec3) = {main_v46, main_v47_0, main_v47_1} from by decide,
    bigSep_insert (by decide), bigSep_insert (by decide), bigSep_singleton]
  rfl

include a3 in
theorem seg3_ub_split :
    (unscopedBufs c B : sProp 𝕄)
      = iprop(Pipeline.arrBufs spec3 c B ∗ Pipeline.prefHeld pre3 c (fun _ => fullShare) (fun k => B (pre3.ref k)) ∗ Pipeline.unscopedRestP pre3 spec3 c B) := by
  rw [← Pipeline.unscopedRest_split preFacts3 c B]
  exact Pipeline.PerCore.unscopedBufs_split₀ (fun _ (_ : Unit) => cfg3 a3) () c winFacts₀3.arr_unscoped B

-- The buffer the two input windows share, whole, is its two halves.
theorem seg3_arrays_iff_arrBufs
    (G : (w : Fin (cfg3 a3).W) → Buf (Elt F) (((cfg3 a3).win w).arr.view.loc (c : Thread nD τ))) (hG : ∀ w, G w = B (Pipeline.arrRef spec3 w)) :
    ((dat3 a3 V c).arrays G : sProp 𝕄) ⊣⊢ Pipeline.arrBufs spec3 c B := by
  obtain rfl : G = fun w => B (Pipeline.arrRef spec3 w) := funext hG
  rw [seg3_arrays_eq a3 V c B, seg3_arrBufs_eq c B]
  constructor
  · iintro ⟨Hl, Hr, H2, H3⟩
    iframe H2 H3
    iapply (pointsTo_share (PosShare.mem_left_op_right fullShare)).2
    iframe
  · iintro ⟨H, H2, H3⟩
    iframe H2 H3
    iapply (pointsTo_share (PosShare.mem_left_op_right fullShare)).1
    iexact H

end Carve

abbrev Rrest (c : Dev nD) : sProp 𝕄 := iprop((∃ r, prngReg c r) ∗ ∃ W, owes (c : Thread nD τ) (0 : CellTallies nD τ sig Unit) W)

def X3 (c : Dev nD) : sProp 𝕄 := iprop(∃ r, prngReg c r)

def Y3 (c : Dev nD) : sProp 𝕄 := iprop((∃ r, prngReg c r) ∗ Pipeline.prefHeld (Ix := Unit) (Name := ℕ) (U := UR sig nD τ) (Lvl := ℕ) pre3 c (fun _ => fullShare) a3.1)

def Z3 (W : Valuation τ sig (Elt F)) (c : Dev nD) : sProp 𝕄 :=
  Pipeline.unscopedRestP (Ix := Unit) (Name := ℕ) (U := UR sig nD τ) (Lvl := ℕ) pre3 spec3 c (fun b => W b)

theorem seg3_held_split (c : Dev nD) (W : Valuation τ sig (Elt F)) (htab : ∀ j, W (pre3.ref j) = a3.1 j) :
    (StableHlo.held (c : Thread nD τ) (Pipeline.ucRefs τ sig) W : sProp 𝕄)
      = iprop(Pipeline.arrBufs spec3 c (fun b => W b) ∗ Pipeline.prefHeld pre3 c (fun _ => fullShare) a3.1 ∗ Z3 W c) :=
  ((Pipeline.unscopedBufs_held c W).symm.trans (seg3_ub_split a3 c (fun b => W b))).trans
    (seg3_sep_eq rfl (seg3_sep_eq (congrArg (Pipeline.prefHeld pre3 c (fun _ => fullShare)) (funext htab)) rfl))

theorem entry3 (c : Dev nD) (W : Valuation τ sig (Elt F)) (hV : ∀ b, V c b = W b) (htab : ∀ j, W (pre3.ref j) = a3.1 j) :
    iprop(StableHlo.held (c : Thread nD τ) (Pipeline.ucRefs τ sig) W ∗ Rrest c)
      ⊢ |={Set.univ}=> iprop((dat3 a3 V c).arrays ((dat3 a3 V c).arrAt · 0)
          ∗ Pipeline.prefHeld (Ix := Unit) (Name := ℕ) (U := UR sig nD τ) (Lvl := ℕ) pre3 c (fun _ => fullShare) a3.1
          ∗ (dat3 a3 V c).owesAt () 0 ∗ X3 c ∗ Z3 W c) := by
  rw [seg3_held_split a3 c W htab]; unfold X3 Pipeline.Dat.owesAt Pipeline.owesWithin
  iintro ⟨⟨Harr, Hpf, Hrest⟩, Hp, %W0, HO⟩
  imodintro
  iframe Hpf Hp Hrest
  isplitl [Harr]
  · iapply (seg3_arrays_iff_arrBufs a3 V c (fun b => W b) _ (fun w => hV (Pipeline.arrRef spec3 w))).2
    iexact Harr
  iexists W0; isplitr; · ipureintro; exact fun _ _ => Or.inl trivial
  iexact HO

theorem exit3 (c : Dev nD) (W W' : Valuation τ sig (Elt F)) (htab : ∀ j, W (pre3.ref j) = a3.1 j)
    (hF : ∀ w, (dat3 a3 V c).arrAt w (cfg3 a3).N = W' (Pipeline.arrRef spec3 w))
    (hrest : ∀ b : Ref sig .tc, b ∉ Finset.univ.image (Pipeline.arrRef spec3) → W' b = W b) :
    iprop((dat3 a3 V c).arrays ((dat3 a3 V c).arrAt · (cfg3 a3).N) ∗ (dat3 a3 V c).owesAt () (Fin.last (cfg3 a3).N) ∗ Y3 a3 c ∗ Z3 W c)
      ⊢ |={Set.univ}=> iprop(StableHlo.held (c : Thread nD τ) (Pipeline.ucRefs τ sig) W' ∗ Rrest c) := by
  have htab' : ∀ j, W' (pre3.ref j) = a3.1 j := fun j =>
    (hrest (pre3.ref j) fun h => by
      obtain ⟨w, -, hw⟩ := Finset.mem_image.mp h
      exact preFacts3.disj j w hw.symm).trans (htab j)
  have hZ : (Z3 W' c : sProp 𝕄) = Z3 W c := by
    unfold Z3 Pipeline.unscopedRestP
    exact bigSep_congr fun b hb => by beta_reduce; rw [hrest b (Finset.mem_sdiff.mp (Finset.mem_sdiff.mp hb).1).2]
  rw [seg3_held_split a3 c W' htab', hZ]; unfold Y3 Rrest Pipeline.Dat.owesAt Pipeline.owesWithin
  iintro ⟨Ha, ⟨%W0, -, HO⟩, ⟨Hp, Hpf⟩, HZ⟩
  imodintro
  iframe Hpf HZ Hp
  isplitl [Ha]
  · iapply (seg3_arrays_iff_arrBufs a3 V c (fun b => W' b) _ hF).1
    iexact Ha
  iexists W0; iexact HO

end Cert.KernelIdeal.Hand
-- ==== Proof.FinalKI.lean ====
import proofs.«401547_j83227876262380_2_alg».proof.Proof.RunKI
import proofs.«401547_j83227876262380_2_alg».proof.Proof.Seg3KI

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a3 : (pcfg3 (F := F)).Adm)

theorem V7_stage (c : Dev nD) : V7 m (outs8 m a3) c = V7 m (outs6 m) c := rfl

theorem v47_ne : (Proc.devRef .tc main_v47_0 : DevRef τ sig) ≠ Proc.devRef .tc main_v47_1 :=
  StableHlo.devRef_ne_of_ne (by decide)

theorem V8_out2 (c : Dev nD) : rd (V8 m (outs8 m a3)) c main_v47_0 = o8a m a3 c := by
  simp only [rd, V8, outs8, Function.update_self, Function.update_of_ne v47_ne]

theorem V8_out3 (c : Dev nD) : rd (V8 m (outs8 m a3)) c main_v47_1 = o8b m a3 c := by
  simp only [rd, V8, outs8, Function.update_self]

theorem hF3_0 (c : Dev nD) : (dat3 a3 (rd (V7 m (outs6 m))) c).arrAt 0 (cfg3 a3).N = rd (V8 m (outs8 m a3)) c main_v46 := by
  rw [(dat3 a3 (rd (V7 m (outs6 m))) c).arrAt_in 0 rfl, A_eq3]
  exact ((V8_of m (outs8 m a3) c main_v46 (by decide)).trans (congrFun (V7_stage m a3 c) _)).symm
theorem hF3_1 (c : Dev nD) : (dat3 a3 (rd (V7 m (outs6 m))) c).arrAt 1 (cfg3 a3).N = rd (V8 m (outs8 m a3)) c main_v46 := by
  rw [(dat3 a3 (rd (V7 m (outs6 m))) c).arrAt_in 1 rfl, A_eq3]
  exact ((V8_of m (outs8 m a3) c main_v46 (by decide)).trans (congrFun (V7_stage m a3 c) _)).symm

theorem hF3 (c : Dev nD) : ∀ w : Fin (cfg3 a3).W, (dat3 a3 (rd (V7 m (outs6 m))) c).arrAt w (cfg3 a3).N = rd (V8 m (outs8 m a3)) c (Pipeline.arrRef spec3 w)
  | ⟨0, _⟩ => hF3_0 m a3 c
  | ⟨1, _⟩ => hF3_1 m a3 c
  | ⟨2, _⟩ => (V8_out2 m a3 c).symm
  | ⟨3, _⟩ => (V8_out3 m a3 c).symm

theorem hrest3 (c : Dev nD) : ∀ b, b ∉ Finset.univ.image (Pipeline.arrRef spec3) → rd (V8 m (outs8 m a3)) c b = rd (V7 m (outs6 m)) c b :=
  fun b hb => ((V8_of m (outs8 m a3) c b fun h => by
    rcases List.mem_cons.mp h with h | h
    · exact hb (Finset.mem_image.mpr ⟨2, Finset.mem_univ _, by cases h; rfl⟩)
    · exact hb (Finset.mem_image.mpr ⟨3, Finset.mem_univ _, by cases List.mem_singleton.mp h; rfl⟩)).trans (congrFun (V7_stage m a3 c) _))

set_option backward.isDefEq.respectTransparency.types false in

def reg3 (htab : ∀ (c : Dev nD) (j : Fin 2), V7 m (outs6 m) c (pre3.ref j) = a3.1 j) :
    Pipeline.RegionSeg (pcfgs (F := F)) (adm a3) (pdats m a3) () defs₀ 𝒱₀ L lv 3 where
  win := winFacts₀3
  block_pos := block_pos3
  stage_whole := stage_whole3
  K := PEmpty
  osem k := k.elim
  ho := Pipeline.OwnSemFacts.none _
  hbody c := (body_obligation3 a3 (rd (V7 m (outs6 m))) c).loose
  hwaits := Pipeline.hwaits_of_owed_zero _ _ _ _ L lv 3 fun _ _ => rfl
  pre c := iprop(StableHlo.held (c : Thread nD τ) (Pipeline.ucRefs τ sig) (V7 m (outs6 m) c) ∗ R c)
  post c := iprop(StableHlo.held (c : Thread nD τ) (Pipeline.ucRefs τ sig) (V8 m (outs8 m a3) c) ∗ R c)
  X c := X3 c
  Y c := Y3 a3 c
  Z c := Z3 (V7 m (outs6 m) c) c
  hentry c := by
    rw [Pipeline.ownSems0_none]
    iintro ⟨H, -, -⟩
    iapply (entry3 a3 (rd (V7 m (outs6 m))) c (V7 m (outs6 m) c) (fun _ => rfl) (htab c))
    iexact H
  hin c := Phi3_in a3 (rd (V7 m (outs6 m))) c
  hout c := Phi3_out a3 (rd (V7 m (outs6 m))) c
  hexit c := exit3 a3 (rd (V7 m (outs6 m))) c (V7 m (outs6 m) c) (V8 m (outs8 m a3) c) (htab c) (hF3 m a3 c) (hrest3 m a3 c)

set_option backward.isDefEq.respectTransparency.types false in

theorem run_all (htab : ∀ (c : Dev nD) (j : Fin 2), V7 m (outs6 m) c (pre3.ref j) = a3.1 j) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V10 m (outs10 m a3) c b) :=
  run_cond m emb₁ () 𝒱₀ L lv (fun _ _ => rfl) ρ (outs10 m a3) (adm a3) (pdats m a3) 0 (fun _ => iprop(emp))
    (initOf (Pipeline.cells (Pipeline.pin (pcfgs (F := F)) (adm a3)) (cellOf_inj (adm a3))) (Pipeline.launchToks (Pipeline.pin (pcfgs (F := F)) (adm a3)) (cellOf_inj (adm a3))))
    (by
      iintro Hu; imodintro
      isplitl [Hu]
      · iapply (show (ownU (initOf (Pipeline.cells (Pipeline.pin (pcfgs (F := F)) (adm a3)) (cellOf_inj (adm a3))) (Pipeline.launchToks (Pipeline.pin (pcfgs (F := F)) (adm a3)) (cellOf_inj (adm a3)))) : sProp 𝕄)
            ⊢ BI.own (emb₁ (initOf (Pipeline.cells (Pipeline.pin (pcfgs (F := F)) (adm a3)) (cellOf_inj (adm a3))) (Pipeline.launchToks (Pipeline.pin (pcfgs (F := F)) (adm a3)) (cellOf_inj (adm a3))))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m a3) (fun _ => .rfl) (fun _ => .rfl)
    (reg1 m a3) (fun _ => .rfl) (fun _ => .rfl)
    (reg2 m a3) (fun _ => .rfl) (fun _ => .rfl)
    (reg3 m a3 htab) (fun _ => .rfl) (fun _ => .rfl)
    (reg4 m a3) (fun _ => .rfl) (fun _ => .rfl)

end Cert.KernelIdeal.Hand

end
-- ==== Proof.OkOfPreKI.lean ====
import proofs.«401547_j83227876262380_2_alg».proof.KernelIdeal
import proofs.«401547_j83227876262380_2_alg».proof.Pre_finite_inputs
import proofs.«401547_j83227876262380_2_alg».proof.Proof.Gen.KernelIdeal
import proofs.«401547_j83227876262380_2_alg».proof.Proof.Gen.Pre_finite_inputs
import Idealize.ShloMosaic.Lib.ReduceAll
import Idealize.ShloMosaic.Lib.StableHlo.Predicate

noncomputable section

namespace Cert.KernelIdeal.Hand

open Idealize.ShloMosaic Cert.Pre_finite_inputs Cert.Pre_finite_inputs.Facts

variable [Cert.Pre_finite_inputs.Facts] [Cert.KernelIdeal.Facts] {F : FTy → Type} [FloatOps F]

section
omit [Cert.KernelIdeal.Facts]

def j0 : S_.Idx := fun d => d.elim0

-- An all-reduce by `and` of the two signed compares 0 ≤ t and t < 100000 that came out 1 puts every word of t in [0, 100000), where signed and unsigned readings agree.
theorem all_range3 (t z n : IVec S16384 32) (c : IVec S_ 1) (hz : ∀ x, z x = 0#32) (hn : ∀ x, n x = 100000#32)
    (e : Host.reduce IntOp.andi (andi (cmpi .sge t z) (cmpi .slt t n)) c reducesTo_S16384_S_d0 h_S_ j0 = 1#1) (x : S16384.Idx) :
    (t x).toNat < 100000 ∧ 0 ≤ (t x).toInt := by
  obtain ⟨m0, m1⟩ := IntOp.andi_eq_one.1 (Host.reduce_andi_eq_one _ _ _ _ j0 e x (funext fun d => d.elim0))
  have p0 := IntOp.cmpi_sge.1 m0
  have p1 := IntOp.cmpi_slt.1 m1
  rw [hz, show (0#32 : BitVec 32).toInt = 0 from by decide] at p0
  rw [hn, show (100000#32 : BitVec 32).toInt = 100000 from by decide, BitVec.toInt_eq_toNat_of_lt (BitVec.toInt_pos_iff.1 p0)] at p1
  exact ⟨by omega, p0⟩

-- The precondition's last conjuncts are the two range checks of the index tables.
theorem part6_range (a23 : FVec F S1700000 .f32) (a24 a25 : IVec S16384 32) (v98 : IVec S_ 1) (v101 : IVec S1 1) (c39 : IVec S_ 1)
    (h : fn_part6 (F := F) a23 a24 a25 v98 v101 c39 = fun _ => 1#1) :
    (∀ x, (a24 x).toNat < 100000 ∧ 0 ≤ (a24 x).toInt) ∧ ∀ x, (a25 x).toNat < 100000 ∧ 0 ≤ (a25 x).toInt := by
  obtain ⟨e115, e121⟩ := IntOp.andi_eq_one.1 (congrFun h j0)
  exact ⟨all_range3 _ _ _ _ (fun _ => rfl) (fun _ => rfl) (IntOp.andi_eq_one.1 e115).2, all_range3 _ _ _ _ (fun _ => rfl) (fun _ => rfl) e121⟩

theorem row_block_inb (n : Nat) (hn : n < 100000) :
    ∀ a, ((![n, 0, 0] : Fin 3 → Nat) a + 1) * S1x1x128.size a ≤ S100000x1x128.size a := by
  intro a
  fin_cases a <;> simp [S1x1x128, S100000x1x128] <;> omega

end

variable (a0 : FVec F Cert.Pre_finite_inputs.S100000x32 .f32) (a1 : FVec F Cert.Pre_finite_inputs.S32x32 .f32) (a2 : FVec F Cert.Pre_finite_inputs.S32 .f32) (a3 : FVec F Cert.Pre_finite_inputs.S32x32 .f32) (a4 : FVec F Cert.Pre_finite_inputs.S32 .f32) (a5 : FVec F Cert.Pre_finite_inputs.S32x32 .f32) (a6 : FVec F Cert.Pre_finite_inputs.S32 .f32) (a7 : FVec F Cert.Pre_finite_inputs.S128x64 .f32) (a8 : FVec F Cert.Pre_finite_inputs.S64 .f32) (a9 : FVec F Cert.Pre_finite_inputs.S64x32 .f32) (a10 : FVec F Cert.Pre_finite_inputs.S32 .f32) (a11 : FVec F Cert.Pre_finite_inputs.S128x64 .f32) (a12 : FVec F Cert.Pre_finite_inputs.S64 .f32) (a13 : FVec F Cert.Pre_finite_inputs.S64x32 .f32) (a14 : FVec F Cert.Pre_finite_inputs.S32 .f32) (a15 : FVec F Cert.Pre_finite_inputs.S64x32 .f32) (a16 : FVec F Cert.Pre_finite_inputs.S32 .f32) (a17 : FVec F Cert.Pre_finite_inputs.S32x16 .f32) (a18 : FVec F Cert.Pre_finite_inputs.S16 .f32) (a19 : FVec F Cert.Pre_finite_inputs.S16x1 .f32) (a20 : FVec F Cert.Pre_finite_inputs.S1 .f32) (a21 : IVec Cert.Pre_finite_inputs.S1700000 32) (a22 : IVec Cert.Pre_finite_inputs.S1700000 32) (a23 : FVec F Cert.Pre_finite_inputs.S1700000 .f32) (a24 : IVec Cert.Pre_finite_inputs.S16384 32) (a25 : IVec Cert.Pre_finite_inputs.S16384 32)
  (h : Cert.Pre_finite_inputs.fn (F := F) a0 a1 a2 a3 a4 a5 a6 a7 a8 a9 a10 a11 a12 a13 a14 a15 a16 a17 a18 a19 a20 a21 a22 a23 a24 a25 = fun _ => 1#1)
include h

omit [Cert.KernelIdeal.Facts] in
theorem u_range_of_pre : ∀ x : Cert.Pre_finite_inputs.S16384.Idx, (a24 x).toNat < 100000 ∧ 0 ≤ (a24 x).toInt :=
  (part6_range _ _ _ _ _ _ h).1

omit [Cert.KernelIdeal.Facts] in
theorem i_range_of_pre : ∀ x : Cert.Pre_finite_inputs.S16384.Idx, (a25 x).toNat < 100000 ∧ 0 ≤ (a25 x).toInt :=
  (part6_range _ _ _ _ _ _ h).2

theorem ok3_of_pre (pf : pre3.Contents (Elt F)) (h0 : pf 0 = a24) (h1 : pf 1 = a25) : ok3 (F := F) pf := by
  subst h0 h1
  obtain ⟨hu, hi⟩ := part6_range _ _ _ _ _ _ h
  exact ⟨fun i => ⟨row_block_inb _ (hu _).1, Or.inl rfl⟩, fun i => ⟨row_block_inb _ (hi _).1, Or.inl rfl⟩⟩

end Cert.KernelIdeal.Hand

end
-- ==== Proof.ClaimsKI.lean ====
import proofs.«401547_j83227876262380_2_alg».proof.Defs
import proofs.«401547_j83227876262380_2_alg».proof.Proof.Gen.Pre_finite_inputs
import proofs.«401547_j83227876262380_2_alg».proof.Proof.FinalKI
import proofs.«401547_j83227876262380_2_alg».proof.Proof.OkOfPreKI

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.Sem

variable {F : FTy → Type} [FloatOps F]

variable (m : (ℓ : Loc nD τ sig) → Buf (Elt F) ℓ)

def tblOf : pre3.Contents (Elt F) := fun j => m ((((0 : Dev nD).tc : Thread nD τ)).loc (pre3.ref j))

/-- No stretch and no earlier region writes an index table. -/
theorem htab_of (outs : Outs (F := F)) (c : Dev nD) (j : Fin 2) : V7 m outs c (pre3.ref j) = tblOf m j := by
  obtain rfl : c = 0 := Subsingleton.elim _ _
  fin_cases j <;>
    exact (V7_of m outs 0 _ (by decide)).trans <| (V6_of m outs 0 _ (by decide)).trans <| (V5_of m outs 0 _ (by decide)).trans <|
      (V4_of m outs 0 _ (by decide)).trans <| (V3_of m outs 0 _ (by decide)).trans <| (V2_of m outs 0 _ (by decide)).trans <| V1_of m 0 _ (by decide)

abbrev PreAt : Prop :=
  ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) = (fun _ => 1#1)

theorem ok_of_pre (h : PreAt m) : ok3 (F := F) (tblOf m) :=
  ok3_of_pre _ _ _ _ _ _ _ _ _ _ _ _ _ _ _ _ _ _ _ _ _ _ _ _ _ _ (h 0) _ rfl rfl

abbrev admOf (h : PreAt m) : (pcfg3 (F := F)).Adm := ⟨tblOf m, ok_of_pre m h⟩

/-- Core `c`'s argument arrays hold in `s` what they hold in the launch memory. -/
def ArgsKept (s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)
  ∧ s ((c.tc : Thread nD τ).loc main_arg12) = m ((c.tc : Thread nD τ).loc main_arg12)
  ∧ s ((c.tc : Thread nD τ).loc main_arg13) = m ((c.tc : Thread nD τ).loc main_arg13)
  ∧ s ((c.tc : Thread nD τ).loc main_arg14) = m ((c.tc : Thread nD τ).loc main_arg14)
  ∧ s ((c.tc : Thread nD τ).loc main_arg15) = m ((c.tc : Thread nD τ).loc main_arg15)
  ∧ s ((c.tc : Thread nD τ).loc main_arg16) = m ((c.tc : Thread nD τ).loc main_arg16)
  ∧ s ((c.tc : Thread nD τ).loc main_arg17) = m ((c.tc : Thread nD τ).loc main_arg17)
  ∧ s ((c.tc : Thread nD τ).loc main_arg18) = m ((c.tc : Thread nD τ).loc main_arg18)
  ∧ s ((c.tc : Thread nD τ).loc main_arg19) = m ((c.tc : Thread nD τ).loc main_arg19)
  ∧ s ((c.tc : Thread nD τ).loc main_arg20) = m ((c.tc : Thread nD τ).loc main_arg20)
  ∧ s ((c.tc : Thread nD τ).loc main_arg21) = m ((c.tc : Thread nD τ).loc main_arg21)
  ∧ s ((c.tc : Thread nD τ).loc main_arg22) = m ((c.tc : Thread nD τ).loc main_arg22)
  ∧ s ((c.tc : Thread nD τ).loc main_arg23) = m ((c.tc : Thread nD τ).loc main_arg23)
  ∧ s ((c.tc : Thread nD τ).loc main_arg24) = m ((c.tc : Thread nD τ).loc main_arg24)
  ∧ s ((c.tc : Thread nD τ).loc main_arg25) = m ((c.tc : Thread nD τ).loc main_arg25)

/-- Under the precondition the run ends with the result array as the last region leaves it and every argument array as launched: nothing writes an argument. -/
theorem run_of_pre (ρ : Dev nD → PrngReg) (h : PreAt m) :
    θ_run defs (onTc (τ := τ) (main (F := F))) ⟨m, fun _ => 0, ρ⟩ (fun r => ∀ c : Dev nD,
      r.2.mem ((c.tc : Thread nD τ).loc main_v57) = V10 m (outs10 m (admOf m h)) c main_v57 ∧ ArgsKept m r.2.mem c) :=
  (θ_run defs _ _).mono (fun r hr c =>
    have key : ∀ (b : Ref sig .tc) {x}, ¬ (Proc.devRef .tc b : DevRef τ sig).isScoped →
        V10 m (outs10 m (admOf m h)) c b = x → r.2.mem ((c.tc : Thread nD τ).loc b) = x :=
      fun b _ hs e => (hr c _ (Finset.mem_filter.mpr ⟨StableHlo.devRef_mem_tcRefs b, hs⟩)).trans e
    ⟨key main_v57 (by decide) rfl,
      key _ (by decide) (V10_main_arg0 m _ c),
      key _ (by decide) (V10_main_arg1 m _ c),
      key _ (by decide) (V10_main_arg2 m _ c),
      key _ (by decide) (V10_main_arg3 m _ c),
      key _ (by decide) (V10_main_arg4 m _ c),
      key _ (by decide) (V10_main_arg5 m _ c),
      key _ (by decide) (V10_main_arg6 m _ c),
      key _ (by decide) (V10_main_arg7 m _ c),
      key _ (by decide) (V10_main_arg8 m _ c),
      key _ (by decide) (V10_main_arg9 m _ c),
      key _ (by decide) (V10_main_arg10 m _ c),
      key _ (by decide) (V10_main_arg11 m _ c),
      key _ (by decide) (V10_main_arg12 m _ c),
      key _ (by decide) (V10_main_arg13 m _ c),
      key _ (by decide) (V10_main_arg14 m _ c),
      key _ (by decide) (V10_main_arg15 m _ c),
      key _ (by decide) (V10_main_arg16 m _ c),
      key _ (by decide) (V10_main_arg17 m _ c),
      key _ (by decide) (V10_main_arg18 m _ c),
      key _ (by decide) (V10_main_arg19 m _ c),
      key _ (by decide) (V10_main_arg20 m _ c),
      key _ (by decide) (V10_main_arg21 m _ c),
      key _ (by decide) (V10_main_arg22 m _ c),
      key _ (by decide) (V10_main_arg23 m _ c),
      key _ (by decide) (V10_main_arg24 m _ c),
      key _ (by decide) (V10_main_arg25 m _ c)⟩)
    (run_all m (admOf m h) (fun c j => htab_of m (outs6 m) c j) ρ)

theorem frame_of_pre (ρ : Dev nD → PrngReg) (h : PreAt m) :
    θ_run defs (onTc (τ := τ) (main (F := F))) ⟨m, fun _ => 0, ρ⟩ (fun r => ∀ c : Dev nD, ArgsKept m r.2.mem c) :=
  (θ_run defs _ _).mono (fun _ hr c => (hr c).2) (run_of_pre m ρ h)

end Cert.KernelIdeal.Hand

end
-- ==== Proof.Spec.lean ====
import proofs.«401547_j83227876262380_2_alg».proof.KernelIdeal
import proofs.«401547_j83227876262380_2_alg».proof.Proof.Gen.KernelIdeal
import Idealize.ShloMosaic.PureOps.Ideal
import Idealize.ShloMosaic.Lib.ValueIdx

noncomputable section

namespace Cert.KernelIdeal.Spec

open Idealize.ShloMosaic Idealize.ShloMosaic.ValueIdx Cert.KernelIdeal Cert.KernelIdeal.Gen

abbrev Mat (r c : ℕ) : Type := FVec Ideal (⟨2, ![r, c]⟩ : Shape) .f32

def affine {r i o : ℕ} (x : Mat r i) (w : Mat i o) (b : Mat 1 o) : Mat r o :=
  fun j => (∑ k : Fin i, x (ix2 (j 0 : Fin r) k) * w (ix2 k (j 1 : Fin o))) + b (ix2 (0 : Fin 1) (j 1 : Fin o))

def dense {r i o : ℕ} (x : Mat r i) (w : Mat i o) (b : Mat 1 o) : Mat r o :=
  fun j => max (affine x w b j) 0

def hcat32 {r : ℕ} (x y : Mat r 32) : Mat r 64 :=
  fun j => if h : ((j 1 : Fin 64) : ℕ) < 32 then x (ix2 (j 0 : Fin r) ⟨((j 1 : Fin 64) : ℕ), h⟩)
    else y (ix2 (j 0 : Fin r) ⟨((j 1 : Fin 64) : ℕ) - 32, by have h64 : ((j 1 : Fin 64) : ℕ) < 64 := (j 1 : Fin 64).isLt; omega⟩)

def head {r i : ℕ} (x : Mat r i) (w : Mat i 1) (b : Mat 1 1) : Mat r 1 :=
  fun j => Ideal.logistic (affine x w b j)

def mlp {r : ℕ} (uf vf : Mat r 128) (uw0 : Mat 128 64) (ub0 : Mat 1 64) (uw1 : Mat 64 32) (ub1 : Mat 1 32)
    (iw0 : Mat 128 64) (ib0 : Mat 1 64) (iw1 : Mat 64 32) (ib1 : Mat 1 32)
    (cw0 : Mat 64 32) (cb0 : Mat 1 32) (cw1 : Mat 32 16) (cb1 : Mat 1 16) (cw2 : Mat 16 1) (cb2 : Mat 1 1) : Mat r 1 :=
  head (dense (dense (hcat32 (dense (dense uf uw0 ub0) uw1 ub1) (dense (dense vf iw0 ib0) iw1 ib1)) cw0 cb0) cw1 cb1) cw2 cb2

abbrev gcn (x : Mat 100000 32) (w : Mat 32 32) (b : Mat 1 32) : Mat 100000 32 := dense x w b

def rowOf (w : BitVec 32) : Fin 100000 := ⟨w.toNat % 100000, Nat.mod_lt _ (by decide)⟩

def pick (h : Mat 100000 128) (tbl : IVec (⟨1, ![16384]⟩ : Shape) 32) : Mat 16384 128 :=
  fun j => h (ix2 (rowOf (tbl (ix1 (j 0 : Fin 16384)))) (j 1 : Fin 128))

def spmm {F : FTy → Type} [FloatOps F] (x : FVec F S100000x32 .f32) (row col : IVec S1700000 32) (val : FVec F S1700000 .f32) :
    FVec F S100000x32 .f32 :=
  Host.scatterAdd scatter_S100000x32_S1700000x1_S1700000x32_1_0_0_1
    (broadcastInDim S100000x32 ![] bcast_S_S100000x32 (constant S_ .f32 0x00000000#32))
    (broadcastInDim S1700000x1 ![0] bcast_S1700000_S1700000x1_0 row)
    (mulf (broadcastInDim S1700000x32 ![0, 1] bcast_S1700000x1_S1700000x32_0_1 (broadcastInDim S1700000x1 ![0] bcast_S1700000_S1700000x1_0 val))
      (Host.gather gather_S100000x32_S1700000x1_S1700000x32_1_0_n_n_0_1_132 x
        (broadcastInDim S1700000x1 ![0] bcast_S1700000_S1700000x1_0
          (select (cmpi .slt col (broadcastInDim S1700000 ![] bcast_S_S1700000 (constantI S_ 32 0#32)))
            (addi col (broadcastInDim S1700000 ![] bcast_S_S1700000 (constantI S_ 32 100000#32))) col))))

def rowOfVec {n : ℕ} (b : FVec Ideal (⟨1, ![n]⟩ : Shape) .f32) : Mat 1 n := fun j => b (ix1 (j 1 : Fin n))

def hcat4 {r : ℕ} (a b c d : Mat r 32) : Mat r 128 :=
  fun j =>
    if h1 : ((j 1 : Fin 128) : ℕ) < 32 then a (ix2 (j 0 : Fin r) ⟨((j 1 : Fin 128) : ℕ), h1⟩)
    else if h2 : ((j 1 : Fin 128) : ℕ) < 64 then b (ix2 (j 0 : Fin r) ⟨((j 1 : Fin 128) : ℕ) - 32, by omega⟩)
    else if h3 : ((j 1 : Fin 128) : ℕ) < 96 then c (ix2 (j 0 : Fin r) ⟨((j 1 : Fin 128) : ℕ) - 64, by omega⟩)
    else d (ix2 (j 0 : Fin r) ⟨((j 1 : Fin 128) : ℕ) - 96, by have h128 : ((j 1 : Fin 128) : ℕ) < 128 := (j 1 : Fin 128).isLt; omega⟩)

def net (e : Mat 100000 32) (w0 : Mat 32 32) (b0 : FVec Ideal S32 .f32) (w1 : Mat 32 32) (b1 : FVec Ideal S32 .f32)
    (w2 : Mat 32 32) (b2 : FVec Ideal S32 .f32)
    (uw0 : Mat 128 64) (ub0 : FVec Ideal S64 .f32) (uw1 : Mat 64 32) (ub1 : FVec Ideal S32 .f32)
    (iw0 : Mat 128 64) (ib0 : FVec Ideal S64 .f32) (iw1 : Mat 64 32) (ib1 : FVec Ideal S32 .f32)
    (cw0 : Mat 64 32) (cb0 : FVec Ideal S32 .f32) (cw1 : Mat 32 16) (cb1 : FVec Ideal S16 .f32) (cw2 : Mat 16 1) (cb2 : FVec Ideal S1 .f32)
    (row col : IVec S1700000 32) (val : FVec Ideal S1700000 .f32) (u i : IVec S16384 32) : Mat 16384 1 :=
  let h1 : Mat 100000 32 := gcn (spmm (F := Ideal) e row col val) w0 (rowOfVec b0)
  let h2 : Mat 100000 32 := gcn (spmm (F := Ideal) h1 row col val) w1 (rowOfVec b1)
  let h3 : Mat 100000 32 := gcn (spmm (F := Ideal) h2 row col val) w2 (rowOfVec b2)
  let h : Mat 100000 128 := hcat4 e h1 h2 h3
  mlp (pick h u) (pick h i) uw0 (rowOfVec ub0) uw1 (rowOfVec ub1) iw0 (rowOfVec ib0) iw1 (rowOfVec ib1)
    cw0 (rowOfVec cb0) cw1 (rowOfVec cb1) cw2 (rowOfVec cb2)

end Cert.KernelIdeal.Spec

end
-- ==== Proof.GcnValKI.lean ====
import proofs.«401547_j83227876262380_2_alg».proof.Proof.Reg0KI
import proofs.«401547_j83227876262380_2_alg».proof.Proof.Spec
import Idealize.ShloMosaic.Lib.ValueLayout
import Idealize.ShloMosaic.PureOps.Ideal.Laws

noncomputable section

namespace Cert.KernelIdeal.Hand

open Cert.KernelIdeal Cert.KernelIdeal.Gen Cert.KernelIdeal.GenP
open Idealize.ShloMosaic Idealize.ShloMosaic.ValueIdx Idealize.ShloMosaic.TcCoe

/-- The contraction has one axis: re-indexed by its coordinate, both operand indices compute. -/
theorem mm0_apply {φ₁ φ₂ : FTy} (l : FVec Ideal S2000x32 φ₁) (r : FVec Ideal S32x32 φ₂) (p : Fin 2000) (q : Fin 32) :
    matmul dot_S2000x32_S32x32_S2000x32_1_0_0_1_n_n none l r (constant S2000x32 .f32 0x00000000#32) (ix2 p q)
      = ∑ k : Fin 32, l (ix2 p k) * r (ix2 k q) :=
  (Ideal.matmul_constant_zero_apply _ _ l r _).trans (Fintype.sum_equiv (contrEquiv1 _ 32 rfl rfl) _ _ fun k =>
    congrArg₂ (l · * r ·) (funext fun a => by fin_cases a <;> rfl) (funext fun a => by fin_cases a <;> rfl))

theorem pay0_apply (x0 : Vec Ideal S2000x32 .f32) (x1 : Vec Ideal S32x32 .f32) (x2 : Vec Ideal S1x32 .f32) (p : Fin 2000) (q : Fin 32) :
    k0_pay1 (F := Ideal) x0 x1 x2 (ix2 p q) = max ((∑ k : Fin 32, x0 (ix2 p k) * x1 (ix2 k q)) + x2 (ix2 (0 : Fin 1) q)) 0 := by
  unfold k0_pay1
  simp only [shapeCast_self]
  rw [maximumf_apply, addf_apply, mm0_apply, broadcastTo_1b_ab_apply, broadcast_apply]
  show max _ (Ideal.ofBits .f32 0x00000000#32) = _
  rw [Ideal.ofBits_zero_f32]
  rfl

variable (V : (c : Dev nD) → (b : Ref sig .tc) → Buf (Elt Ideal) ((c : Thread nD τ).loc b))

theorem hz0 : (![0, 0] : Fin 2 → Nat) = fun _ => 0 := funext fun a => by fin_cases a <;> rfl

/-- Decided over the 50 grid points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

abbrev G0 (c : Dev nD) : Vec Ideal S100000x32 .f32 :=
  Spec.gcn (V c main_v12) (V c main_arg1) (V c main_v13)

/-- A block entry is the array entry at block index × block size + its own coordinate, so the layer of the blocks is the block of the layer. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3, out0_3, View.canon_unit_zero hz0, View.ld_unit_zero (S := S2000x32) hz0, View.ld_unit_zero (S := S32x32) hz0, View.ld_unit_zero (S := S1x32) hz0]
  obtain ⟨e0, e1, e2, e3, e4, e5, e6, e7⟩ := idx_facts0 t
  funext j
  obtain ⟨p, q, rfl⟩ : ∃ (p : Fin 2000) (q : Fin 32), j = ix2 p q := ⟨j 0, j 1, eq_ix2 j⟩
  refine (pay0_apply _ _ _ p q).trans (congrArg₂ max (congrArg₂ (· + ·) (Finset.sum_congr rfl fun k _ => congrArg₂ (· * ·) ?_ ?_) ?_) rfl)
  · exact congrArg (V c main_v12) (Shape.idx_ext₂ (by show win0_0.index t (0 : Fin 2) * 2000 + 1 * p.val = win0_3.index t (0 : Fin 2) * 2000 + 1 * p.val; omega)
      (by show win0_0.index t (1 : Fin 2) * 32 + 1 * k.val = k.val; omega))
  · exact congrArg (V c main_arg1) (Shape.idx_ext₂ (by show win0_1.index t (0 : Fin 2) * 32 + 1 * k.val = k.val; omega)
      (by show win0_1.index t (1 : Fin 2) * 32 + 1 * q.val = win0_3.index t (1 : Fin 2) * 32 + 1 * q.val; omega))
  · exact congrArg (V c main_v13) (Shape.idx_ext₂ (by show win0_2.index t (0 : Fin 2) * 1 + 1 * 0 = 0; omega)
      (by show win0_2.index t (1 : Fin 2) * 32 + 1 * q.val = win0_3.index t (1 : Fin 2) * 32 + 1 * q.val; omega))

/-- Row r lies in the block of point r / 2000. -/
theorem cover0 (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  let t : Fin cfg0.N := ⟨(i 0).val / 2000, by rw [show cfg0.N = 50 from N_0]; omega⟩
  obtain ⟨e0, e1, e2, e3, e4, e5, e6, e7⟩ := idx_facts0 t
  have htv : t.val = (i 0).val / 2000 := rfl
  refine ⟨t, flush0_3 t, ?_⟩
  show i ∈ ((View.whole main_v14).slice (win0_3.rect t)).set
  rw [View.set_slice_whole, Rect.mem_set_unit]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 32 ≤ (i 1).val ∧ (i 1).val < win0_3.index t (1 : Fin 2) * 32 + 32; omega

theorem final0 (c : Dev nD) :
    (dat0 (F := Ideal) V c).arrAt 3 cfg0.N = Spec.gcn (V c main_v12) (V c main_arg1) (V c main_v13) :=
  (dat0 (F := Ideal) V c).arrAt_eq_of_cover 3 (G0 V c) (fun t _ => flushed0_eq V c t) cover0

end Cert.KernelIdeal.Hand
-- ==== Proof.Gcn1ValKI.lean ====
import proofs.«401547_j83227876262380_2_alg».proof.Proof.Reg1KI
import proofs.«401547_j83227876262380_2_alg».proof.Proof.Spec
import Idealize.ShloMosaic.Lib.ValueLayout
import Idealize.ShloMosaic.PureOps.Ideal.Laws

noncomputable section

namespace Cert.KernelIdeal.Hand

open Cert.KernelIdeal Cert.KernelIdeal.Gen Cert.KernelIdeal.GenP
open Idealize.ShloMosaic Idealize.ShloMosaic.ValueIdx Idealize.ShloMosaic.TcCoe

/-- The contraction has one axis: re-indexed by its coordinate, both operand indices compute. -/
theorem mm1_apply {φ₁ φ₂ : FTy} (l : FVec Ideal S2000x32 φ₁) (r : FVec Ideal S32x32 φ₂) (p : Fin 2000) (q : Fin 32) :
    matmul dot_S2000x32_S32x32_S2000x32_1_0_0_1_n_n none l r (constant S2000x32 .f32 0x00000000#32) (ix2 p q)
      = ∑ k : Fin 32, l (ix2 p k) * r (ix2 k q) :=
  (Ideal.matmul_constant_zero_apply _ _ l r _).trans (Fintype.sum_equiv (contrEquiv1 _ 32 rfl rfl) _ _ fun k =>
    congrArg₂ (l · * r ·) (funext fun a => by fin_cases a <;> rfl) (funext fun a => by fin_cases a <;> rfl))

theorem pay1_apply (x0 : Vec Ideal S2000x32 .f32) (x1 : Vec Ideal S32x32 .f32) (x2 : Vec Ideal S1x32 .f32) (p : Fin 2000) (q : Fin 32) :
    k1_pay1 (F := Ideal) x0 x1 x2 (ix2 p q) = max ((∑ k : Fin 32, x0 (ix2 p k) * x1 (ix2 k q)) + x2 (ix2 (0 : Fin 1) q)) 0 := by
  unfold k1_pay1
  simp only [shapeCast_self]
  rw [maximumf_apply, addf_apply, mm1_apply, broadcastTo_1b_ab_apply, broadcast_apply]
  show max _ (Ideal.ofBits .f32 0x00000000#32) = _
  rw [Ideal.ofBits_zero_f32]
  rfl

variable (V : (c : Dev nD) → (b : Ref sig .tc) → Buf (Elt Ideal) ((c : Thread nD τ).loc b))

theorem hz1 : (![0, 0] : Fin 2 → Nat) = fun _ => 0 := funext fun a => by fin_cases a <;> rfl

/-- Decided over the 50 grid points. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

abbrev G1 (c : Dev nD) : Vec Ideal S100000x32 .f32 :=
  Spec.gcn (V c main_v27) (V c main_arg3) (V c main_v28)

/-- A block entry is the array entry at block index × block size + its own coordinate, so the layer of the blocks is the block of the layer. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3, out1_3, View.canon_unit_zero hz1, View.ld_unit_zero (S := S2000x32) hz1, View.ld_unit_zero (S := S32x32) hz1, View.ld_unit_zero (S := S1x32) hz1]
  obtain ⟨e0, e1, e2, e3, e4, e5, e6, e7⟩ := idx_facts1 t
  funext j
  obtain ⟨p, q, rfl⟩ : ∃ (p : Fin 2000) (q : Fin 32), j = ix2 p q := ⟨j 0, j 1, eq_ix2 j⟩
  refine (pay1_apply _ _ _ p q).trans (congrArg₂ max (congrArg₂ (· + ·) (Finset.sum_congr rfl fun k _ => congrArg₂ (· * ·) ?_ ?_) ?_) rfl)
  · exact congrArg (V c main_v27) (Shape.idx_ext₂ (by show win1_0.index t (0 : Fin 2) * 2000 + 1 * p.val = win1_3.index t (0 : Fin 2) * 2000 + 1 * p.val; omega)
      (by show win1_0.index t (1 : Fin 2) * 32 + 1 * k.val = k.val; omega))
  · exact congrArg (V c main_arg3) (Shape.idx_ext₂ (by show win1_1.index t (0 : Fin 2) * 32 + 1 * k.val = k.val; omega)
      (by show win1_1.index t (1 : Fin 2) * 32 + 1 * q.val = win1_3.index t (1 : Fin 2) * 32 + 1 * q.val; omega))
  · exact congrArg (V c main_v28) (Shape.idx_ext₂ (by show win1_2.index t (0 : Fin 2) * 1 + 1 * 0 = 0; omega)
      (by show win1_2.index t (1 : Fin 2) * 32 + 1 * q.val = win1_3.index t (1 : Fin 2) * 32 + 1 * q.val; omega))

/-- Row r lies in the block of point r / 2000. -/
theorem cover1 (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  let t : Fin cfg1.N := ⟨(i 0).val / 2000, by rw [show cfg1.N = 50 from N_1]; omega⟩
  obtain ⟨e0, e1, e2, e3, e4, e5, e6, e7⟩ := idx_facts1 t
  have htv : t.val = (i 0).val / 2000 := rfl
  refine ⟨t, flush1_3 t, ?_⟩
  show i ∈ ((View.whole main_v29).slice (win1_3.rect t)).set
  rw [View.set_slice_whole, Rect.mem_set_unit]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 32 ≤ (i 1).val ∧ (i 1).val < win1_3.index t (1 : Fin 2) * 32 + 32; omega

theorem final1 (c : Dev nD) :
    (dat1 (F := Ideal) V c).arrAt 3 cfg1.N = Spec.gcn (V c main_v27) (V c main_arg3) (V c main_v28) :=
  (dat1 (F := Ideal) V c).arrAt_eq_of_cover 3 (G1 V c) (fun t _ => flushed1_eq V c t) cover1

end Cert.KernelIdeal.Hand
-- ==== Proof.Gcn2ValKI.lean ====
import proofs.«401547_j83227876262380_2_alg».proof.Proof.Reg2KI
import proofs.«401547_j83227876262380_2_alg».proof.Proof.Spec
import Idealize.ShloMosaic.Lib.ValueLayout
import Idealize.ShloMosaic.PureOps.Ideal.Laws

noncomputable section

namespace Cert.KernelIdeal.Hand

open Cert.KernelIdeal Cert.KernelIdeal.Gen Cert.KernelIdeal.GenP
open Idealize.ShloMosaic Idealize.ShloMosaic.ValueIdx Idealize.ShloMosaic.TcCoe

/-- The contraction has one axis: re-indexed by its coordinate, both operand indices compute. -/
theorem mm2_apply {φ₁ φ₂ : FTy} (l : FVec Ideal S2000x32 φ₁) (r : FVec Ideal S32x32 φ₂) (p : Fin 2000) (q : Fin 32) :
    matmul dot_S2000x32_S32x32_S2000x32_1_0_0_1_n_n none l r (constant S2000x32 .f32 0x00000000#32) (ix2 p q)
      = ∑ k : Fin 32, l (ix2 p k) * r (ix2 k q) :=
  (Ideal.matmul_constant_zero_apply _ _ l r _).trans (Fintype.sum_equiv (contrEquiv1 _ 32 rfl rfl) _ _ fun k =>
    congrArg₂ (l · * r ·) (funext fun a => by fin_cases a <;> rfl) (funext fun a => by fin_cases a <;> rfl))

theorem pay2_apply (x0 : Vec Ideal S2000x32 .f32) (x1 : Vec Ideal S32x32 .f32) (x2 : Vec Ideal S1x32 .f32) (p : Fin 2000) (q : Fin 32) :
    k2_pay1 (F := Ideal) x0 x1 x2 (ix2 p q) = max ((∑ k : Fin 32, x0 (ix2 p k) * x1 (ix2 k q)) + x2 (ix2 (0 : Fin 1) q)) 0 := by
  unfold k2_pay1
  simp only [shapeCast_self]
  rw [maximumf_apply, addf_apply, mm2_apply, broadcastTo_1b_ab_apply, broadcast_apply]
  show max _ (Ideal.ofBits .f32 0x00000000#32) = _
  rw [Ideal.ofBits_zero_f32]
  rfl

variable (V : (c : Dev nD) → (b : Ref sig .tc) → Buf (Elt Ideal) ((c : Thread nD τ).loc b))

theorem hz2 : (![0, 0] : Fin 2 → Nat) = fun _ => 0 := funext fun a => by fin_cases a <;> rfl

/-- Decided over the 50 grid points. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

abbrev G2 (c : Dev nD) : Vec Ideal S100000x32 .f32 :=
  Spec.gcn (V c main_v42) (V c main_arg5) (V c main_v43)

/-- A block entry is the array entry at block index × block size + its own coordinate, so the layer of the blocks is the block of the layer. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3, out2_3, View.canon_unit_zero hz2, View.ld_unit_zero (S := S2000x32) hz2, View.ld_unit_zero (S := S32x32) hz2, View.ld_unit_zero (S := S1x32) hz2]
  obtain ⟨e0, e1, e2, e3, e4, e5, e6, e7⟩ := idx_facts2 t
  funext j
  obtain ⟨p, q, rfl⟩ : ∃ (p : Fin 2000) (q : Fin 32), j = ix2 p q := ⟨j 0, j 1, eq_ix2 j⟩
  refine (pay2_apply _ _ _ p q).trans (congrArg₂ max (congrArg₂ (· + ·) (Finset.sum_congr rfl fun k _ => congrArg₂ (· * ·) ?_ ?_) ?_) rfl)
  · exact congrArg (V c main_v42) (Shape.idx_ext₂ (by show win2_0.index t (0 : Fin 2) * 2000 + 1 * p.val = win2_3.index t (0 : Fin 2) * 2000 + 1 * p.val; omega)
      (by show win2_0.index t (1 : Fin 2) * 32 + 1 * k.val = k.val; omega))
  · exact congrArg (V c main_arg5) (Shape.idx_ext₂ (by show win2_1.index t (0 : Fin 2) * 32 + 1 * k.val = k.val; omega)
      (by show win2_1.index t (1 : Fin 2) * 32 + 1 * q.val = win2_3.index t (1 : Fin 2) * 32 + 1 * q.val; omega))
  · exact congrArg (V c main_v43) (Shape.idx_ext₂ (by show win2_2.index t (0 : Fin 2) * 1 + 1 * 0 = 0; omega)
      (by show win2_2.index t (1 : Fin 2) * 32 + 1 * q.val = win2_3.index t (1 : Fin 2) * 32 + 1 * q.val; omega))

/-- Row r lies in the block of point r / 2000. -/
theorem cover2 (i : S100000x32.Idx) : ∃ t : Fin cfg2.N, (cfg2.win 3).flush t = true ∧ i ∈ ((cfg2.win 3).blk t).view.set := by
  have hi0 : (i 0).val < 100000 := (i 0).isLt
  have hi1 : (i 1).val < 32 := (i 1).isLt
  let t : Fin cfg2.N := ⟨(i 0).val / 2000, by rw [show cfg2.N = 50 from N_2]; omega⟩
  obtain ⟨e0, e1, e2, e3, e4, e5, e6, e7⟩ := idx_facts2 t
  have htv : t.val = (i 0).val / 2000 := rfl
  refine ⟨t, flush2_3 t, ?_⟩
  show i ∈ ((View.whole main_v44).slice (win2_3.rect t)).set
  rw [View.set_slice_whole, Rect.mem_set_unit]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 32 ≤ (i 1).val ∧ (i 1).val < win2_3.index t (1 : Fin 2) * 32 + 32; omega

theorem final2 (c : Dev nD) :
    (dat2 (F := Ideal) V c).arrAt 3 cfg2.N = Spec.gcn (V c main_v42) (V c main_arg5) (V c main_v43) :=
  (dat2 (F := Ideal) V c).arrAt_eq_of_cover 3 (G2 V c) (fun t _ => flushed2_eq V c t) cover2

end Cert.KernelIdeal.Hand
-- ==== Proof.GatherValKI.lean ====
import proofs.«401547_j83227876262380_2_alg».proof.Proof.Reg3KI
import proofs.«401547_j83227876262380_2_alg».proof.Proof.Spec
import Idealize.ShloMosaic.Lib.Pipeline.Value
import Idealize.ShloMosaic.Lib.ValueIdx

noncomputable section

namespace Cert.KernelIdeal.Hand

open Cert.KernelIdeal Cert.KernelIdeal.Gen Cert.KernelIdeal.GenP
open Idealize.ShloMosaic Idealize.ShloMosaic.TcCoe Idealize.SL.Sem
open Idealize.ShloMosaic.Pipeline (Dat Cfg Window)

open Idealize.ShloMosaic.ValueIdx

variable {F : FTy → Type} [FloatOps F] (a3 : (pcfg3 (F := F)).Adm)
  (V : (c : Dev nD) → (b : Ref sig .tc) → Buf (Elt F) ((c : Thread nD τ).loc b))

theorem hz3 : (![0, 0, 0] : Fin 3 → Nat) = fun _ => 0 := funext fun a => by fin_cases a <;> rfl

-- One whole store of a payload that is its operand leaves the operand.
theorem canon_id3 (p : Vec F S1x1x128 .f32 → Vec F S1x1x128 .f32) (hp : ∀ x, p x = x) (x : Vec F S1x1x128 .f32) :
    View.canon [⟨r3_0, p (View.ld x r3_0)⟩] = x := by
  rw [View.canon_unit_zero hz3, View.ld_unit_zero (S := S1x1x128) hz3, hp]

-- Under the block's inner index y the source index is (tb[k], p, l), where (k, p, l) is the result index under y.
theorem gather_idx (tb : IVec S16384 32) (hu : ∀ x, (tb x).toNat < 100000) (n : Nat)
    (inb : ∀ a, (![n] : Fin 1 → Nat) a + S1.size a ≤ S16384.size a) (h1 : S1.numel = 1)
    (y : S1x1x128.Idx) (s : S100000x1x128.Idx) (k : Fin 16384) (p : Fin 1) (l : Fin 128)
    (hs0 : (s 0).val = (tb ((Rect.unit (s := S16384) ![n] S1.size inb).emb (Shape.Idx.first (h1.symm ▸ Nat.one_pos)))).toNat * 1 + 1 * (y 0).val)
    (hs1 : (s 1).val = 0 * 1 + 1 * (y 1).val) (hs2 : (s 2).val = 0 * 128 + 1 * (y 2).val)
    (hj0 : k.val = n * 1 + 1 * (y 0).val) (hj1 : p.val = 0 * 1 + 1 * (y 1).val) (hj2 : l.val = 0 * 128 + 1 * (y 2).val) :
    s = ValueIdx.ix3 (Spec.rowOf (tb (ValueIdx.ix1 k))) p l := by
  have hy0 : (y 0).val < 1 := (y 0).isLt
  have hidx : (Rect.unit (s := S16384) ![n] S1.size inb).emb (Shape.Idx.first (h1.symm ▸ Nat.one_pos)) = ValueIdx.ix1 k := by
    funext d; apply Fin.ext
    match d with
    | ⟨0, _⟩ =>
      show n + 1 * 0 = k.val
      omega
  rw [hidx] at hs0
  have hw := hu (ValueIdx.ix1 k)
  funext a; apply Fin.ext
  match a with
  | ⟨0, _⟩ =>
    show (s 0).val = (tb (ValueIdx.ix1 k)).toNat % 100000
    rw [Nat.mod_eq_of_lt hw, hs0]
    omega
  | ⟨1, _⟩ => show (s 1).val = p.val; omega
  | ⟨2, _⟩ => show (s 2).val = l.val; omega

-- Both result windows' block at point t is block (t, 0, 0).
theorem idx3 (t : Fin grid3.N) : (![(BitVec.ofNat 32 ((grid3.coords t) 0).val).toNat, 0, 0] : Fin 3 → Nat) = ![t.val, 0, 0] := by
  have h : t.val < 16384 := lt_of_lt_of_eq t.isLt N_3
  show (![(BitVec.ofNat 32 (t.val / 1 % 16384)).toNat, 0, 0] : Fin 3 → Nat) = _
  rw [Nat.div_one, Nat.mod_eq_of_lt h, BitVec.toNat_ofNat, Nat.mod_eq_of_lt (by omega)]

theorem flush_of_inj3 {G : Pipeline.Grid} (W : Window sig G) (ho : W.isOut = true) (hi : ∀ t t', W.index t = W.index t' → t.val = t'.val)
    (t : Fin G.N) : W.flush t = true := by
  unfold Pipeline.Window.flush
  rw [ho, Bool.true_and, Bool.or_eq_true, decide_eq_true_eq, decide_eq_true_eq]
  by_cases h : t.val + 1 = G.N
  · exact Or.inl h
  · exact Or.inr ⟨by have := t.isLt; omega, fun e => Nat.succ_ne_self _ (hi _ _ e)⟩

theorem row_mem (r : Nat) (idx : Fin 3 → Nat) (hidx : idx = ![r, 0, 0]) (i : S16384x1x128.Idx) (hr : (i 0).val = r) :
    ∀ a : Fin 3, idx a * S1x1x128.size a ≤ (i a).val ∧ (i a).val < idx a * S1x1x128.size a + S1x1x128.size a := by
  subst hidx
  have hi1 : (i 1).val < 1 := (i 1).isLt
  have hi2 : (i 2).val < 128 := (i 2).isLt
  intro a
  match a with
  | ⟨0, _⟩ => show r * 1 ≤ (i 0).val ∧ (i 0).val < r * 1 + 1; omega
  | ⟨1, _⟩ => show 0 * 1 ≤ (i 1).val ∧ (i 1).val < 0 * 1 + 1; omega
  | ⟨2, _⟩ => show 0 * 128 ≤ (i 2).val ∧ (i 2).val < 0 * 128 + 128; omega

-- Row r of either result lies in point r's block.
theorem covers3 (i : S16384x1x128.Idx) :
    (∃ t : Fin (cfg3 a3).N, ((cfg3 a3).win 2).flush t = true ∧ i ∈ (((cfg3 a3).win 2).blk t).view.set)
      ∧ ∃ t : Fin (cfg3 a3).N, ((cfg3 a3).win 3).flush t = true ∧ i ∈ (((cfg3 a3).win 3).blk t).view.set := by
  have ht : (i 0).val < grid3.N := by rw [N_3]; exact (i 0).isLt
  constructor <;> exact ⟨⟨_, ht⟩, flush_of_inj3 _ rfl (fun t t' e => by exact congrFun ((idx3 t).symm.trans (e.trans (idx3 t'))) 0) _,
    (Finset.ext_iff.mp (View.set_slice_whole _ _) i).mpr (Rect.mem_set_unit.mpr (row_mem _ _ (idx3 ⟨_, ht⟩) i rfl))⟩

theorem final3_2 (c : Dev nD) (hu : ∀ x, (a3.1 0 x).toNat < 100000) :
    (dat3 a3 V c).arrAt 2 (cfg3 a3).N
      = fun j : S16384x1x128.Idx => V c main_v46 (ValueIdx.ix3 (Spec.rowOf (a3.1 0 (ValueIdx.ix1 (j 0 : Fin 16384)))) (j 1 : Fin 1) (j 2 : Fin 128)) :=
  (dat3 a3 V c).arrAt_eq_of_cover 2 _ (fun t _ => funext fun y =>
    (congrFun (congrArg (((cfg3 a3).win 2).cut (grid3.coords t)) ((after3_2 a3 V c t).trans (canon_id3 k3_pay1 (fun _ => shapeCast_self _ _) _))) y).trans
      (congrArg (V c main_v46) (gather_idx (a3.1 0) hu _ (k3_off1_inb (grid3.coords t)) numel1_S1 y
        ((((cfg3 a3).win 0).blk t).view.emb y) _ _ _ rfl rfl rfl rfl rfl rfl))) fun i => (covers3 a3 i).1

theorem final3_3 (c : Dev nD) (hi : ∀ x, (a3.1 1 x).toNat < 100000) :
    (dat3 a3 V c).arrAt 3 (cfg3 a3).N
      = fun j : S16384x1x128.Idx => V c main_v46 (ValueIdx.ix3 (Spec.rowOf (a3.1 1 (ValueIdx.ix1 (j 0 : Fin 16384)))) (j 1 : Fin 1) (j 2 : Fin 128)) :=
  (dat3 a3 V c).arrAt_eq_of_cover 3 _ (fun t _ => funext fun y =>
    (congrFun (congrArg (((cfg3 a3).win 3).cut (grid3.coords t)) ((after3_3 a3 V c t).trans (canon_id3 k3_pay2 (fun _ => shapeCast_self _ _) _))) y).trans
      (congrArg (V c main_v46) (gather_idx (a3.1 1) hi _ (k3_off1_inb (grid3.coords t)) numel1_S1 y
        ((((cfg3 a3).win 1).blk t).view.emb y) _ _ _ rfl rfl rfl rfl rfl rfl))) fun i => (covers3 a3 i).2

end Cert.KernelIdeal.Hand

end
-- ==== Proof.MlpValKI.lean ====
import proofs.«401547_j83227876262380_2_alg».proof.Proof.Reg4KI
import proofs.«401547_j83227876262380_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.ShloMosaic.Pipeline (Dat Cfg Window BodyObligation cellOf)

/-- Entry (p, q) of a plain product onto a zero accumulator is row p against column q, whatever the three extents. -/
theorem mm_apply {m k n : ℕ} {φ₁ φ₂ : FTy} (x : FVec Ideal ⟨2, ![m, k]⟩ φ₁) (w : FVec Ideal ⟨2, ![k, n]⟩ φ₂) (p : Fin m) (q : Fin n) :
    FloatOps.matmul (DotDims.plain m k n) none x w (constant ⟨2, ![m, n]⟩ .f32 0x00000000#32) (ix2 p q) = ∑ c : Fin k, x (ix2 p c) * w (ix2 c q) :=
  (congrFun (matmul_zero_eq_dotGeneral _ none x w) _).trans (StackMember.dotGeneral_plain_apply none x w p q)

theorem dot1_eq : dot_S2048x128_S128x64_S2048x64_1_0_0_1_n_n = DotDims.plain 2048 128 64 := rfl
theorem dot2_eq : dot_S2048x64_S64x32_S2048x32_1_0_0_1_n_n = DotDims.plain 2048 64 32 := rfl
theorem dot3_eq : dot_S2048x32_S32x16_S2048x16_1_0_0_1_n_n = DotDims.plain 2048 32 16 := rfl
theorem dot4_eq : dot_S2048x16_S16x1_S2048x1_1_0_0_1_n_n = DotDims.plain 2048 16 1 := rfl

theorem dense_apply {r i o : ℕ} (x : Spec.Mat r i) (w : Spec.Mat i o) (b : Spec.Mat 1 o) (p : Fin r) (q : Fin o) :
    Spec.dense x w b (ix2 p q) = max ((∑ k : Fin i, x (ix2 p k) * w (ix2 k q)) + b (ix2 (0 : Fin 1) q)) 0 := rfl

theorem head_apply {r i : ℕ} (x : Spec.Mat r i) (w : Spec.Mat i 1) (b : Spec.Mat 1 1) (p : Fin r) (q : Fin 1) :
    Spec.head x w b (ix2 p q) = Ideal.logistic ((∑ k : Fin i, x (ix2 p k) * w (ix2 k q)) + b (ix2 (0 : Fin 1) q)) := rfl

theorem hcat32_apply {r : ℕ} (x y : Spec.Mat r 32) (p : Fin r) (q : Fin 64) :
    Spec.hcat32 x y (ix2 p q) = if h : (q : ℕ) < 32 then x (ix2 p ⟨(q : ℕ), h⟩)
      else y (ix2 p ⟨(q : ℕ) - 32, by have h64 : (q : ℕ) < 64 := q.isLt; omega⟩) := rfl

theorem logistic_apply {s : Shape} {φ : FTy} (a : FVec Ideal s φ) (i : s.Idx) : logistic a i = Ideal.logistic (a i) := rfl

theorem scalar_zero : (Scalar.ofBits (F := Ideal) .f32 0x00000000#32 : Ideal .f32) = 0 := Ideal.ofBits_zero_f32

theorem concat32_apply (x y : FVec Ideal S2048x32 .f32) (p : Fin 2048) (q : Fin 64) :
    concatenate S2048x64 1 [⟨S2048x32, x⟩, ⟨S2048x32, y⟩] concatenates_S2048x32_S2048x32_S2048x64_d1 (ix2 p q)
      = Spec.hcat32 x y (ix2 p q) := by
  rw [hcat32_apply]
  split
  · rename_i h
    exact concatenate_pair_apply_left 1 x y _ (ix2 p q) rfl (ix2 p ⟨(q : ℕ), h⟩)
      (fun b => by match b with | ⟨0, _⟩ => rfl | ⟨1, _⟩ => rfl)
  · rename_i h
    have h64 : (q : ℕ) < 64 := q.isLt
    exact concatenate_pair_apply_right 1 x y _ (ix2 p q) rfl rfl (ix2 p ⟨(q : ℕ) - 32, by omega⟩)
      (fun b hb => by match b with | ⟨0, _⟩ => rfl | ⟨1, _⟩ => exact absurd rfl hb)
      (by show (q : ℕ) - 32 + 32 = (q : ℕ); omega)

theorem pay1_eq (v0 : Vec Ideal S2048x128 .f32) (v5 : Vec Ideal S128x64 .f32) (v8 : Vec Ideal S1x64 .f32)
    (v15 : Vec Ideal S64x32 .f32) (v18 : Vec Ideal S1x32 .f32) :
    k4_pay1 (F := Ideal) v0 v5 v8 v15 v18 = Spec.dense (Spec.dense v0 v5 v8) v15 v18 := by
  funext j
  obtain ⟨p, q, rfl⟩ : ∃ (p : Fin 2048) (q : Fin 32), j = ix2 p q := ⟨j 0, j 1, eq_ix2 j⟩
  unfold k4_pay1
  simp only [dense_apply, maximumf_apply, addf_apply, truncf_apply, broadcast_apply, dot1_eq, dot2_eq, mm_apply,
    shapeCast_self, broadcastTo_1b_ab_apply, scalar_zero]

theorem pay2_eq (v2 : Vec Ideal S2048x128 .f32) (v25 : Vec Ideal S128x64 .f32) (v28 : Vec Ideal S1x64 .f32) :
    k4_pay2 (F := Ideal) v2 v25 v28 = Spec.dense v2 v25 v28 := by
  funext j
  obtain ⟨p, q, rfl⟩ : ∃ (p : Fin 2048) (q : Fin 64), j = ix2 p q := ⟨j 0, j 1, eq_ix2 j⟩
  unfold k4_pay2
  simp only [dense_apply, maximumf_apply, addf_apply, truncf_apply, broadcast_apply, dot1_eq, mm_apply,
    shapeCast_self, broadcastTo_1b_ab_apply, scalar_zero]

theorem pay3_eq (a : FVec Ideal S2048x32 .f32) (b : FVec Ideal S2048x64 .bf16) (v35 : Vec Ideal S64x32 .f32) (v38 : Vec Ideal S1x32 .f32)
    (v46 : Vec Ideal S64x32 .f32) (v49 : Vec Ideal S1x32 .f32) (v56 : Vec Ideal S32x16 .f32) (v59 : Vec Ideal S1x16 .f32)
    (v66 : Vec Ideal S16x1 .f32) (v69 : Vec Ideal S1x1 .f32) :
    k4_pay3 (F := Ideal) a b v35 v38 v46 v49 v56 v59 v66 v69
      = Spec.head (Spec.dense (Spec.dense (Spec.hcat32 a (Spec.dense b v35 v38)) v46 v49) v56 v59) v66 v69 := by
  funext j
  obtain ⟨p, q, rfl⟩ : ∃ (p : Fin 2048) (q : Fin 1), j = ix2 p q := ⟨j 0, j 1, eq_ix2 j⟩
  unfold k4_pay3
  simp only [head_apply, dense_apply, logistic_apply, maximumf_apply, addf_apply, truncf_apply, broadcast_apply,
    dot2_eq, dot3_eq, dot4_eq, mm_apply, concat32_apply, hcat32_apply,
    shapeCast_self, broadcastTo_1b_ab_apply, scalar_zero]

theorem mlp_pay (x0 x1 : Vec Ideal S2048x128 .f32) (x2 : Vec Ideal S128x64 .f32) (x3 : Vec Ideal S1x64 .f32)
    (x4 : Vec Ideal S64x32 .f32) (x5 : Vec Ideal S1x32 .f32) (x6 : Vec Ideal S128x64 .f32) (x7 : Vec Ideal S1x64 .f32)
    (x8 : Vec Ideal S64x32 .f32) (x9 : Vec Ideal S1x32 .f32) (x10 : Vec Ideal S64x32 .f32) (x11 : Vec Ideal S1x32 .f32)
    (x12 : Vec Ideal S32x16 .f32) (x13 : Vec Ideal S1x16 .f32) (x14 : Vec Ideal S16x1 .f32) (x15 : Vec Ideal S1x1 .f32) :
    k4_pay3 (F := Ideal) (k4_pay1 x0 x2 x3 x4 x5) (k4_pay2 x1 x6 x7) x8 x9 x10 x11 x12 x13 x14 x15
      = Spec.mlp (r := 2048) x0 x1 x2 x3 x4 x5 x6 x7 x8 x9 x10 x11 x12 x13 x14 x15 := by
  rw [pay1_eq, pay2_eq, pay3_eq]
  rfl

/-- Every layer reads one row: with the same weights and biases, row `p` of the result on a block of rows is row `f p` of the result on the whole arrays. -/
theorem mlp_rows {r R : ℕ} {f : Fin r → Fin R} {uf' vf' : Spec.Mat r 128} {uf vf : Spec.Mat R 128}
    (huf : ∀ p k, uf' (ix2 p k) = uf (ix2 (f p) k)) (hvf : ∀ p k, vf' (ix2 p k) = vf (ix2 (f p) k))
    {a2 a2' : Spec.Mat 128 64} {a3 a3' : Spec.Mat 1 64} {a4 a4' : Spec.Mat 64 32} {a5 a5' : Spec.Mat 1 32} {a6 a6' : Spec.Mat 128 64} {a7 a7' : Spec.Mat 1 64} {a8 a8' : Spec.Mat 64 32} {a9 a9' : Spec.Mat 1 32} {a10 a10' : Spec.Mat 64 32} {a11 a11' : Spec.Mat 1 32} {a12 a12' : Spec.Mat 32 16} {a13 a13' : Spec.Mat 1 16} {a14 a14' : Spec.Mat 16 1} {a15 a15' : Spec.Mat 1 1}
    (hu : a2' = a2 ∧ a3' = a3 ∧ a4' = a4 ∧ a5' = a5) (hi : a6' = a6 ∧ a7' = a7 ∧ a8' = a8 ∧ a9' = a9) (hh : a10' = a10 ∧ a11' = a11 ∧ a12' = a12 ∧ a13' = a13 ∧ a14' = a14 ∧ a15' = a15) (p : Fin r) (q : Fin 1) :
    Spec.mlp uf' vf' a2' a3' a4' a5' a6' a7' a8' a9' a10' a11' a12' a13' a14' a15' (ix2 p q) = Spec.mlp uf vf a2 a3 a4 a5 a6 a7 a8 a9 a10 a11 a12 a13 a14 a15 (ix2 (f p) q) := by
  obtain ⟨rfl, rfl, rfl, rfl⟩ := hu
  obtain ⟨rfl, rfl, rfl, rfl⟩ := hi
  obtain ⟨rfl, rfl, rfl, rfl, rfl, rfl⟩ := hh
  unfold Spec.mlp
  simp only [head_apply, dense_apply, hcat32_apply, huf, hvf]

variable (V : (c : Dev nD) → (b : Ref sig .tc) → Buf (Elt Ideal) ((c : Thread nD τ).loc b))

theorem hz4 : (![0, 0] : Fin 2 → Nat) = fun _ => 0 := funext fun a => by fin_cases a <;> rfl

theorem idx_rows : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_16.index t (0 : Fin 2) = t.val ∧ win4_16.index t (1 : Fin 2) = 0) :=
  (by decide +kernel : ∀ t : Fin grid4.N, _)

theorem idx_whole : ∀ (w : Fin cfg4.W) (t : Fin cfg4.N) (a : Fin (cfg4.win w).shape.rank), 2 ≤ w.val ∧ w.val ≤ 15 → (cfg4.win w).index t a = 0 := by
  decide +kernel

/-- In a weight or bias window an element of the block has the same coordinates in the array. -/
theorem emb_whole4 (w : Fin cfg4.W) (t : Fin cfg4.N) (hw : 2 ≤ w.val ∧ w.val ≤ 15) (x : ((cfg4.win w).xblock (cfg4.grid.coords t)).Idx) (a : Fin (cfg4.win w).shape.rank) :
    (((cfg4.win w).rect t).emb x a : ℕ) = x a := Pipeline.Window.rect_emb_val_of_index_zero _ t a (idx_whole w t a hw) x

/-- So each weight or bias block, at every point, is its whole array: for the first tower, the second tower and the head. -/
theorem blks_u (c : Dev nD) (t : Fin cfg4.N) :
    (iblk4 V c 2 t : Vec Ideal S128x64 .f32) = V c main_arg7
    ∧ (iblk4 V c 3 t : Vec Ideal S1x64 .f32) = V c main_v50
    ∧ (iblk4 V c 4 t : Vec Ideal S64x32 .f32) = V c main_arg9
    ∧ (iblk4 V c 5 t : Vec Ideal S1x32 .f32) = V c main_v51 :=
  ⟨funext fun x => congrArg (V c _) (funext fun a => Fin.ext (emb_whole4 2 t (by decide) x a)),
   funext fun x => congrArg (V c _) (funext fun a => Fin.ext (emb_whole4 3 t (by decide) x a)),
   funext fun x => congrArg (V c _) (funext fun a => Fin.ext (emb_whole4 4 t (by decide) x a)),
   funext fun x => congrArg (V c _) (funext fun a => Fin.ext (emb_whole4 5 t (by decide) x a))⟩

theorem blks_i (c : Dev nD) (t : Fin cfg4.N) :
    (iblk4 V c 6 t : Vec Ideal S128x64 .f32) = V c main_arg11
    ∧ (iblk4 V c 7 t : Vec Ideal S1x64 .f32) = V c main_v52
    ∧ (iblk4 V c 8 t : Vec Ideal S64x32 .f32) = V c main_arg13
    ∧ (iblk4 V c 9 t : Vec Ideal S1x32 .f32) = V c main_v53 :=
  ⟨funext fun x => congrArg (V c _) (funext fun a => Fin.ext (emb_whole4 6 t (by decide) x a)),
   funext fun x => congrArg (V c _) (funext fun a => Fin.ext (emb_whole4 7 t (by decide) x a)),
   funext fun x => congrArg (V c _) (funext fun a => Fin.ext (emb_whole4 8 t (by decide) x a)),
   funext fun x => congrArg (V c _) (funext fun a => Fin.ext (emb_whole4 9 t (by decide) x a))⟩

theorem blks_h (c : Dev nD) (t : Fin cfg4.N) :
    (iblk4 V c 10 t : Vec Ideal S64x32 .f32) = V c main_arg15
    ∧ (iblk4 V c 11 t : Vec Ideal S1x32 .f32) = V c main_v54
    ∧ (iblk4 V c 12 t : Vec Ideal S32x16 .f32) = V c main_arg17
    ∧ (iblk4 V c 13 t : Vec Ideal S1x16 .f32) = V c main_v55
    ∧ (iblk4 V c 14 t : Vec Ideal S16x1 .f32) = V c main_arg19
    ∧ (iblk4 V c 15 t : Vec Ideal S1x1 .f32) = V c main_v56 :=
  ⟨funext fun x => congrArg (V c _) (funext fun a => Fin.ext (emb_whole4 10 t (by decide) x a)),
   funext fun x => congrArg (V c _) (funext fun a => Fin.ext (emb_whole4 11 t (by decide) x a)),
   funext fun x => congrArg (V c _) (funext fun a => Fin.ext (emb_whole4 12 t (by decide) x a)),
   funext fun x => congrArg (V c _) (funext fun a => Fin.ext (emb_whole4 13 t (by decide) x a)),
   funext fun x => congrArg (V c _) (funext fun a => Fin.ext (emb_whole4 14 t (by decide) x a)),
   funext fun x => congrArg (V c _) (funext fun a => Fin.ext (emb_whole4 15 t (by decide) x a))⟩

theorem t_lt8 (t : Fin cfg4.N) : t.val < 8 := lt_of_lt_of_eq t.isLt N_4

def rowAt (t : Fin cfg4.N) (p : Fin 2048) : Fin 16384 := ⟨2048 * t.val + p.val, by have := t_lt8 t; have := p.isLt; omega⟩

/-- A feature window's block at point `t` is rows `2048 t … 2048 t + 2047` of its array. -/
theorem feat0_blk (c : Dev nD) (t : Fin cfg4.N) (p : Fin 2048) (k : Fin 128) :
    (iblk4 V c 0 t : Vec Ideal S2048x128 .f32) (ix2 p k) = (V c main_v48 : S16384x128.Idx → Elt Ideal .f32) (ix2 (rowAt t p) k) :=
  congrArg (V c _) (funext fun a => Fin.ext (by
    match a with
    | ⟨0, _⟩ => show win4_0.index t (0 : Fin 2) * 2048 + 1 * p.val = 2048 * t.val + p.val; rw [(idx_rows t).1.1]; omega
    | ⟨1, _⟩ => show win4_0.index t (1 : Fin 2) * 128 + 1 * k.val = k.val; rw [(idx_rows t).1.2]; omega))

theorem feat1_blk (c : Dev nD) (t : Fin cfg4.N) (p : Fin 2048) (k : Fin 128) :
    (iblk4 V c 1 t : Vec Ideal S2048x128 .f32) (ix2 p k) = (V c main_v49 : S16384x128.Idx → Elt Ideal .f32) (ix2 (rowAt t p) k) :=
  congrArg (V c _) (funext fun a => Fin.ext (by
    match a with
    | ⟨0, _⟩ => show win4_1.index t (0 : Fin 2) * 2048 + 1 * p.val = 2048 * t.val + p.val; rw [(idx_rows t).2.1.1]; omega
    | ⟨1, _⟩ => show win4_1.index t (1 : Fin 2) * 128 + 1 * k.val = k.val; rw [(idx_rows t).2.1.2]; omega))

abbrev G4 (c : Dev nD) : S16384x1.Idx → Elt Ideal .f32 :=
  Spec.mlp (r := 16384) (V c main_v48) (V c main_v49) (V c main_arg7) (V c main_v50) (V c main_arg9) (V c main_v51) (V c main_arg11) (V c main_v52) (V c main_arg13) (V c main_v53) (V c main_arg15) (V c main_v54) (V c main_arg17) (V c main_v55) (V c main_arg19) (V c main_v56)

theorem out_emb (t : Fin cfg4.N) (p : Fin 2048) (q : Fin 1) :
    ((cfg4.win 16).blk t).view.emb (ix2 p q) = (ix2 (rowAt t p) q : S16384x1.Idx) := by
  have hi := (idx_rows t).2.2
  funext a
  apply Fin.ext
  match a with
  | ⟨0, _⟩ => show win4_16.index t (0 : Fin 2) * 2048 + 1 * p.val = 2048 * t.val + p.val; rw [hi.1]; omega
  | ⟨1, _⟩ => show win4_16.index t (1 : Fin 2) * 1 + 1 * q.val = q.val; rw [hi.2]; omega

theorem flushed4_eq (c : Dev nD) (t : Fin cfg4.N) :
    (dat4 (F := Ideal) V c).flushed 16 t = ((cfg4.win 16).blk t).view.read (Elt Ideal) (G4 V c) := by
  show (cfg4.win 16).cut (grid4.coords t) ((dat4 (F := Ideal) V c).after 16 t) = _
  rw [after4_16]
  unfold out4_16
  rw [View.canon_unit_zero hz4]
  simp only [View.ld_unit_zero (S := S2048x128) hz4, View.ld_unit_zero (S := S128x64) hz4, View.ld_unit_zero (S := S1x64) hz4, View.ld_unit_zero (S := S64x32) hz4, View.ld_unit_zero (S := S1x32) hz4, View.ld_unit_zero (S := S32x16) hz4, View.ld_unit_zero (S := S1x16) hz4, View.ld_unit_zero (S := S16x1) hz4, View.ld_unit_zero (S := S1x1) hz4]
  refine (mlp_pay (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t)).trans ?_
  funext j
  obtain ⟨p, q, rfl⟩ : ∃ (p : Fin 2048) (q : Fin 1), j = ix2 p q := ⟨j 0, j 1, eq_ix2 j⟩
  rw [View.read_apply, out_emb]
  exact mlp_rows (feat0_blk V c t) (feat1_blk V c t) (blks_u V c t) (blks_i V c t) (blks_h V c t) p q

theorem mem_blk16 (t : Fin cfg4.N) (i : S16384x1.Idx) :
    i ∈ ((cfg4.win 16).blk t).view.set ↔ ∀ a : Fin 2, win4_16.index t a * S2048x1.size a ≤ (i a).val ∧ (i a).val < win4_16.index t a * S2048x1.size a + S2048x1.size a := by
  show i ∈ ((View.whole main_v57).slice (win4_16.rect t)).set ↔ _
  rw [View.set_slice_whole, Rect.mem_set_unit]
  exact Iff.rfl

theorem cover16 (i : S16384x1.Idx) : ∃ t : Fin cfg4.N, (cfg4.win 16).flush t = true ∧ i ∈ ((cfg4.win 16).blk t).view.set := by
  have hi0 : (i 0).val < 16384 := (i 0).isLt
  have hi1 : (i 1).val < 1 := (i 1).isLt
  let t : Fin cfg4.N := ⟨(i 0).val / 2048, by rw [show cfg4.N = 8 from N_4]; omega⟩
  have hi := (idx_rows t).2.2
  have e0 : win4_16.index t (0 : Fin 2) = (i 0).val / 2048 := hi.1
  have e1 : win4_16.index t (1 : Fin 2) = 0 := hi.2
  refine ⟨t, flush4_16 t, ?_⟩
  rw [mem_blk16]
  intro a
  match a with
  | ⟨0, _⟩ => show win4_16.index t (0 : Fin 2) * 2048 ≤ (i 0).val ∧ (i 0).val < win4_16.index t (0 : Fin 2) * 2048 + 2048; rw [e0]; omega
  | ⟨1, _⟩ => show win4_16.index t (1 : Fin 2) * 1 ≤ (i 1).val ∧ (i 1).val < win4_16.index t (1 : Fin 2) * 1 + 1; rw [e1]; omega

theorem final4 (c : Dev nD) :
    (dat4 (F := Ideal) V c).arrAt 16 cfg4.N = Spec.mlp (r := 16384) (V c main_v48) (V c main_v49) (V c main_arg7) (V c main_v50) (V c main_arg9) (V c main_v51) (V c main_arg11) (V c main_v52) (V c main_arg13) (V c main_v53) (V c main_arg15) (V c main_v54) (V c main_arg17) (V c main_v55) (V c main_arg19) (V c main_v56) :=
  (dat4 (F := Ideal) V c).arrAt_eq_of_cover 16 (G4 V c) (fun t _ => flushed4_eq V c t) cover16

end Cert.KernelIdeal.Hand

end
-- ==== Proof.RefGcnKI.lean ====
import proofs.«401547_j83227876262380_2_alg».proof.Proof.Gen.ReferenceIdeal.Read
import proofs.«401547_j83227876262380_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.KernelIdeal.Spec (Mat gcn spmm rowOfVec hcat4)

variable (x0 : (⟨S100000x32, .f32⟩ : BufTy).Contents (Elt Ideal)) (x1 : (⟨S32x32, .f32⟩ : BufTy).Contents (Elt Ideal)) (x2 : (⟨S32, .f32⟩ : BufTy).Contents (Elt Ideal)) (x3 : (⟨S32x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x21 x22 : (⟨S1700000, .i32⟩ : BufTy).Contents (Elt Ideal)) (x23 : (⟨S1700000, .f32⟩ : BufTy).Contents (Elt Ideal))

-- The operations before a layer are, composed, the one aggregation function.
theorem agg1_eq : val_main_v12 (F := Ideal) x0 x21 x22 x23 = spmm (F := Ideal) x0 x21 x22 x23 := rfl
theorem agg2_eq : val_main_v30 (F := Ideal) x0 x1 x2 x21 x22 x23 = spmm (F := Ideal) (val_main_v17 x0 x1 x2 x21 x22 x23) x21 x22 x23 := rfl
theorem agg3_eq : val_main_v48 (F := Ideal) x0 x1 x2 x3 x4 x21 x22 x23 = spmm (F := Ideal) (val_main_v35 x0 x1 x2 x3 x4 x21 x22 x23) x21 x22 x23 := rfl

-- The reference's index maps are the row of `y`, the column of `w` and the entry of `b` the layer reads.
theorem layer_at (y : (⟨S100000x32, .f32⟩ : BufTy).Contents (Elt Ideal)) (w : (⟨S32x32, .f32⟩ : BufTy).Contents (Elt Ideal)) (b : (⟨S32, .f32⟩ : BufTy).Contents (Elt Ideal)) (i : S100000x32.Idx) :
    FloatOps.maximumf (FloatOps.addf (∑ k : Fin 32, y (lidx_main_v13 i k) * w (ridx_main_v13 i k)) (b (idx_main_v14 (idx_main_v15 i))))
        (FloatOps.ofBits (F := Ideal) .f32 0x00000000#32)
      = gcn y w (rowOfVec b) i := by
  have el : ∀ k : Fin 32, lidx_main_v13 i k = ix2 (i 0) k := fun k => funext fun a => by
    match a with | ⟨0, _⟩ => rfl | ⟨1, _⟩ => rfl
  have er : ∀ k : Fin 32, ridx_main_v13 i k = ix2 k (i 1) := fun k => funext fun a => by
    match a with | ⟨0, _⟩ => rfl | ⟨1, _⟩ => rfl
  have eb : idx_main_v14 (idx_main_v15 i) = ix1 (i 1) := funext fun a => by
    match a with | ⟨0, _⟩ => rfl
  simp only [el, er, eb, Ideal.maximumf_def, Ideal.addf_def, Ideal.ofBits_def, Ideal.ofBits_zero_f32]
  rfl

abbrev feat1 : Mat 100000 32 := gcn (spmm (F := Ideal) x0 x21 x22 x23) x1 (rowOfVec x2)
abbrev feat2 : Mat 100000 32 := gcn (spmm (F := Ideal) (feat1 x0 x1 x2 x21 x22 x23) x21 x22 x23) x3 (rowOfVec x4)
abbrev feat3 : Mat 100000 32 := gcn (spmm (F := Ideal) (feat2 x0 x1 x2 x3 x4 x21 x22 x23) x21 x22 x23) x5 (rowOfVec x6)

theorem layer1_eq : val_main_v17 (F := Ideal) x0 x1 x2 x21 x22 x23 = feat1 x0 x1 x2 x21 x22 x23 := by
  funext i
  rw [val_main_v17_apply, val_main_v16_apply, val_main_v13_apply, val_main_v15_apply, val_main_v14_apply,
    val_main_call0_v0_apply, val_main_call0_cst_apply, agg1_eq]
  exact layer_at _ x1 x2 i

theorem layer2_eq : val_main_v35 (F := Ideal) x0 x1 x2 x3 x4 x21 x22 x23 = feat2 x0 x1 x2 x3 x4 x21 x22 x23 := by
  funext i
  rw [val_main_v35_apply, val_main_v34_apply, val_main_v31_apply, val_main_v33_apply, val_main_v32_apply,
    val_main_call1_v0_apply, val_main_call1_cst_apply, agg2_eq, layer1_eq]
  exact layer_at _ x3 x4 i

theorem layer3_eq : val_main_v53 (F := Ideal) x0 x1 x2 x3 x4 x5 x6 x21 x22 x23 = feat3 x0 x1 x2 x3 x4 x5 x6 x21 x22 x23 := by
  funext i
  rw [val_main_v53_apply, val_main_v52_apply, val_main_v49_apply, val_main_v51_apply, val_main_v50_apply,
    val_main_call2_v0_apply, val_main_call2_cst_apply, agg3_eq, layer2_eq]
  exact layer_at _ x5 x6 i

-- Column 32 n + q of four 32-column arrays joined along the columns is column q of block n.
theorem hcat4_at (a b c d : (⟨S100000x32, .f32⟩ : BufTy).Contents (Elt Ideal)) :
    concatenate S100000x128 1 [⟨S100000x32, a⟩, ⟨S100000x32, b⟩, ⟨S100000x32, c⟩, ⟨S100000x32, d⟩]
        concatenates_S100000x32_S100000x32_S100000x32_S100000x32_S100000x128_d1
      = hcat4 a b c d := by
  funext j
  have hj : (j 1).val < 128 := (j 1).isLt
  have pc := fun (k : ℕ) (hk : k < 4) (x : (⟨S100000x32, .f32⟩ : BufTy).Contents (Elt Ideal)) hx (pre : ℕ) hpre (q : Fin 32) ha =>
    concatenate_apply_piece 1 [⟨S100000x32, a⟩, ⟨S100000x32, b⟩, ⟨S100000x32, c⟩, ⟨S100000x32, d⟩]
      concatenates_S100000x32_S100000x32_S100000x32_S100000x32_S100000x128_d1 j k hk S100000x32 x hx rfl pre hpre (ix2 (j 0) q)
      (fun b hb => by
        match b with
        | ⟨0, _⟩ => rfl
        | ⟨1, _⟩ => exact absurd rfl hb) ha
  unfold hcat4
  by_cases h1 : (j 1).val < 32
  · rw [dif_pos h1]
    exact pc 0 (by omega) a rfl 0 rfl ⟨(j 1).val, h1⟩ (Nat.zero_add _)
  rw [dif_neg h1]
  by_cases h2 : (j 1).val < 64
  · rw [dif_pos h2]
    exact pc 1 (by omega) b rfl 32 rfl ⟨(j 1).val - 32, by omega⟩ (by show 32 + ((j 1).val - 32) = (j 1).val; omega)
  rw [dif_neg h2]
  by_cases h3 : (j 1).val < 96
  · rw [dif_pos h3]
    exact pc 2 (by omega) c rfl 64 rfl ⟨(j 1).val - 64, by omega⟩ (by show 64 + ((j 1).val - 64) = (j 1).val; omega)
  rw [dif_neg h3]
  exact pc 3 (by omega) d rfl 96 rfl ⟨(j 1).val - 96, by omega⟩ (by show 96 + ((j 1).val - 96) = (j 1).val; omega)

theorem feats_eq : val_main_v54 (F := Ideal) x0 x1 x2 x3 x4 x5 x6 x21 x22 x23
      = hcat4 x0 (feat1 x0 x1 x2 x21 x22 x23) (feat2 x0 x1 x2 x3 x4 x21 x22 x23) (feat3 x0 x1 x2 x3 x4 x5 x6 x21 x22 x23) := by
  unfold val_main_v54
  rw [hcat4_at, layer1_eq, layer2_eq, layer3_eq]

end Cert.ReferenceIdeal.RefValue

end
-- ==== Proof.HostValKI.lean ====
import proofs.«401547_j83227876262380_2_alg».proof.Proof.Spec
import proofs.«401547_j83227876262380_2_alg».proof.Proof.RegionsKI
import Idealize.ShloMosaic.Lib.StableHlo.Run
import Idealize.ShloMosaic.Lib.ValueLayout
import proofs.«401547_j83227876262380_2_alg».proof.Proof.RefGcnKI

noncomputable section

namespace Cert.KernelIdeal.Hand

open Cert.KernelIdeal Cert.KernelIdeal.Gen Cert.KernelIdeal.GenP
open Idealize.ShloMosaic Idealize.ShloMosaic.TcCoe Idealize.ShloMosaic.StableHlo Idealize.ShloMosaic.ValueIdx

section Layout
variable {α : Type} {a b : ℕ}

-- Dropping a unit middle axis keeps the row-major position.
theorem reshape_drop_mid_apply (x : (⟨3, ![a, 1, b]⟩ : Shape).Idx → α)
    (h : (⟨3, ![a, 1, b]⟩ : Shape).ShapeCasts ⟨2, ![a, b]⟩) (j : (⟨2, ![a, b]⟩ : Shape).Idx) :
    shapeCast ⟨2, ![a, b]⟩ x h j = x (ValueIdx.ix3 (j 0) (0 : Fin 1) (j 1)) := by
  refine shapeCast_apply x h j (ValueIdx.ix3 (j 0) (0 : Fin 1) (j 1)) ?_
  rw [Shape.rowMajor_val_three, Shape.rowMajor_val_two]
  show ((j 0).val * 1 + 0) * b + (j 1).val = (j 0).val * b + (j 1).val
  rw [Nat.mul_one, Nat.add_zero]

-- Adding a unit middle axis keeps the row-major position: the new coordinate is 0.
theorem reshape_add_mid_apply (x : (⟨2, ![a, b]⟩ : Shape).Idx → α)
    (h : (⟨2, ![a, b]⟩ : Shape).ShapeCasts ⟨3, ![a, 1, b]⟩) (j : (⟨3, ![a, 1, b]⟩ : Shape).Idx) :
    shapeCast ⟨3, ![a, 1, b]⟩ x h j = x (ix2 (j 0) (j 2)) := by
  refine shapeCast_apply x h j (ix2 (j 0) (j 2)) ?_
  rw [Shape.rowMajor_val_three, Shape.rowMajor_val_two]
  have e1 : (j 1).val = 0 := Nat.lt_one_iff.mp (j 1).isLt
  show (j 0).val * b + (j 2).val = ((j 0).val * 1 + (j 1).val) * b + (j 2).val
  rw [e1, Nat.mul_one, Nat.add_zero]

-- A vector as a one-row array: entry (0, q) is entry q.
theorem row_eq {n : ℕ} (x : FVec Ideal ⟨1, ![n]⟩ .f32) (h : (⟨1, ![n]⟩ : Shape).ShapeCasts ⟨2, ![1, n]⟩) :
    shapeCast ⟨2, ![1, n]⟩ x h = Spec.rowOfVec x :=
  funext fun j => (congrArg _ (eq_ix2 j)).trans (shapeCast_a_1a_apply x h (j 0) (j 1))

end Layout

section Stretch
variable {F : FTy → Type} [FloatOps F] (W : Valuation τ sig (Elt F))

theorem agg0 : StableHlo.after hostOps0 W main_v12 = Spec.spmm (W main_arg0) (W main_arg21) (W main_arg22) (W main_arg23) := by
  after_results_simp; rfl
theorem agg1 : StableHlo.after hostOps1 W main_v27 = Spec.spmm (W main_v14) (W main_arg21) (W main_arg22) (W main_arg23) := by
  after_results_simp; rfl
theorem agg2 : StableHlo.after hostOps2 W main_v42 = Spec.spmm (W main_v29) (W main_arg21) (W main_arg22) (W main_arg23) := by
  after_results_simp; rfl

theorem picked0 {x} (hx : W main_v47_0 = x) :
    StableHlo.after hostOps4 W main_v48 = fun j => x (ValueIdx.ix3 (j 0 : Fin 16384) (0 : Fin 1) (j 1 : Fin 128)) := by
  subst hx; after_results_simp; exact funext (reshape_drop_mid_apply _ _)
theorem picked1 {x} (hx : W main_v47_1 = x) :
    StableHlo.after hostOps4 W main_v49 = fun j => x (ValueIdx.ix3 (j 0 : Fin 16384) (0 : Fin 1) (j 1 : Fin 128)) := by
  subst hx; after_results_simp; exact funext (reshape_drop_mid_apply _ _)

end Stretch

section StretchIdeal
variable (W : Valuation τ sig (Elt Ideal))

theorem bias0 {x} (hx : W main_arg2 = x) : StableHlo.after hostOps0 W main_v13 = Spec.rowOfVec x := by
  subst hx; after_results_simp; exact row_eq _ _
theorem bias1 {x} (hx : W main_arg4 = x) : StableHlo.after hostOps1 W main_v28 = Spec.rowOfVec x := by
  subst hx; after_results_simp; exact row_eq _ _
theorem bias2 {x} (hx : W main_arg6 = x) : StableHlo.after hostOps2 W main_v43 = Spec.rowOfVec x := by
  subst hx; after_results_simp; exact row_eq _ _
theorem rows4 : StableHlo.after hostOps4 W main_v50 = Spec.rowOfVec (W main_arg8) ∧ StableHlo.after hostOps4 W main_v51 = Spec.rowOfVec (W main_arg10)
    ∧ StableHlo.after hostOps4 W main_v52 = Spec.rowOfVec (W main_arg12) ∧ StableHlo.after hostOps4 W main_v53 = Spec.rowOfVec (W main_arg14)
    ∧ StableHlo.after hostOps4 W main_v54 = Spec.rowOfVec (W main_arg16) ∧ StableHlo.after hostOps4 W main_v55 = Spec.rowOfVec (W main_arg18)
    ∧ StableHlo.after hostOps4 W main_v56 = Spec.rowOfVec (W main_arg20) := by
  refine ⟨?_, ?_, ?_, ?_, ?_, ?_, ?_⟩ <;> (after_results_simp; exact row_eq _ _)

theorem joined : StableHlo.after hostOps3 W main_v46
    = fun j => Spec.hcat4 (W main_arg0) (W main_v14) (W main_v29) (W main_v44) (ix2 (j 0 : Fin 100000) (j 2 : Fin 128)) := by
  after_results_simp
  funext j
  exact (reshape_add_mid_apply _ shapeCasts_S100000x128_S100000x1x128 j).trans (congrFun (Cert.ReferenceIdeal.RefValue.hcat4_at _ _ _ _) _)

end StretchIdeal

section Entry
variable {F : FTy → Type} [FloatOps F]
variable (m : (ℓ : Loc nD τ sig) → Buf (Elt F) ℓ) (outs : Outs (F := F)) (c : Dev nD)

-- The contents of `r` at each stage are the launch contents.
structure Kept (r : Ref sig .tc) : Prop where
  v2 : V2 m outs c r = V0 m c r
  v3 : V3 m outs c r = V0 m c r
  v4 : V4 m outs c r = V0 m c r
  v5 : V5 m outs c r = V0 m c r
  v6 : V6 m outs c r = V0 m c r
  v8 : V8 m outs c r = V0 m c r
  v9 : V9 m outs c r = V0 m c r

-- A reference that no stretch and no region writes keeps its launch contents: each stage from the one before.
theorem keep (r : Ref sig .tc)
    (h : r ∉ hostOps0_W ∧ r ∉ [main_v14] ∧ r ∉ hostOps1_W ∧ r ∉ [main_v29] ∧ r ∉ hostOps2_W ∧ r ∉ [main_v44] ∧ r ∉ hostOps3_W
      ∧ r ∉ [main_v47_0, main_v47_1] ∧ r ∉ hostOps4_W := by decide) : Kept m outs c r := by
  obtain ⟨h1, h2, h3, h4, h5, h6, h7, h8, h9⟩ := h
  have e1 := V1_of m c r h1
  have e2 := (V2_of m outs c r h2).trans e1
  have e3 := (V3_of m outs c r h3).trans e2
  have e4 := (V4_of m outs c r h4).trans e3
  have e5 := (V5_of m outs c r h5).trans e4
  have e6 := (V6_of m outs c r h6).trans e5
  have e8 := (V8_of m outs c r h8).trans ((V7_of m outs c r h7).trans e6)
  exact ⟨e2, e3, e4, e5, e6, e8, (V9_of m outs c r h9).trans e8⟩

-- A region's output array is there until something writes it again.
theorem V2_v14 : V2 m outs c main_v14 = outs 2 main_v14 c := Function.update_self _ _ _
theorem V4_v29 : V4 m outs c main_v29 = outs 4 main_v29 c := Function.update_self _ _ _
theorem V6_v44 : V6 m outs c main_v44 = outs 6 main_v44 c := Function.update_self _ _ _
theorem V6_v29 : V6 m outs c main_v29 = outs 4 main_v29 c :=
  (V6_of m outs c main_v29 (by decide)).trans <| (V5_of m outs c main_v29 (by decide)).trans <| V4_v29 m outs c
theorem V6_v14 : V6 m outs c main_v14 = outs 2 main_v14 c :=
  (V6_of m outs c main_v14 (by decide)).trans <| (V5_of m outs c main_v14 (by decide)).trans <| (V4_of m outs c main_v14 (by decide)).trans <| (V3_of m outs c main_v14 (by decide)).trans <| V2_v14 m outs c
theorem V8_v47_1 : V8 m outs c main_v47_1 = outs 8 main_v47_1 c := Function.update_self _ _ _
theorem V8_v47_0 : V8 m outs c main_v47_0 = outs 8 main_v47_0 c :=
  (Function.update_of_ne (StableHlo.devRef_ne_of_ne (by decide : main_v47_0 ≠ main_v47_1) :
    (Proc.devRef .tc main_v47_0 : DevRef τ sig) ≠ Proc.devRef .tc main_v47_1) _ _).trans (Function.update_self _ _ _)

-- The aggregation over the launch graph.
abbrev agg (x : FVec F S100000x32 .f32) : FVec F S100000x32 .f32 :=
  Spec.spmm x (V0 m c main_arg21) (V0 m c main_arg22) (V0 m c main_arg23)

theorem V1_v12 : V1 m c main_v12 = agg m c (V0 m c main_arg0) := agg0 (V0 m c)
theorem V3_v27 : V3 m outs c main_v27 = agg m c (outs 2 main_v14 c) := by
  have h := agg1 (V2 m outs c)
  rw [V2_v14 m outs c, (keep m outs c main_arg21).v2, (keep m outs c main_arg22).v2, (keep m outs c main_arg23).v2] at h
  exact h
theorem V5_v42 : V5 m outs c main_v42 = agg m c (outs 4 main_v29 c) := by
  have h := agg2 (V4 m outs c)
  rw [V4_v29 m outs c, (keep m outs c main_arg21).v4, (keep m outs c main_arg22).v4, (keep m outs c main_arg23).v4] at h
  exact h

theorem V9_v48 : V9 m outs c main_v48 = fun j => outs 8 main_v47_0 c (ValueIdx.ix3 (j 0 : Fin 16384) (0 : Fin 1) (j 1 : Fin 128)) :=
  picked0 _ (V8_v47_0 m outs c)
theorem V9_v49 : V9 m outs c main_v49 = fun j => outs 8 main_v47_1 c (ValueIdx.ix3 (j 0 : Fin 16384) (0 : Fin 1) (j 1 : Fin 128)) :=
  picked1 _ (V8_v47_1 m outs c)

end Entry

section EntryIdeal
variable (m : (ℓ : Loc nD τ sig) → Buf (Elt Ideal) ℓ) (outs : Outs (F := Ideal)) (c : Dev nD)

theorem V1_v13 : V1 m c main_v13 = Spec.rowOfVec (V0 m c main_arg2) := bias0 _ rfl
theorem V3_v28 : V3 m outs c main_v28 = Spec.rowOfVec (V0 m c main_arg4) := bias1 _ (keep m outs c main_arg4).v2
theorem V5_v43 : V5 m outs c main_v43 = Spec.rowOfVec (V0 m c main_arg6) := bias2 _ (keep m outs c main_arg6).v4

theorem V9_rows : V9 m outs c main_v50 = Spec.rowOfVec (V0 m c main_arg8) ∧ V9 m outs c main_v51 = Spec.rowOfVec (V0 m c main_arg10)
    ∧ V9 m outs c main_v52 = Spec.rowOfVec (V0 m c main_arg12) ∧ V9 m outs c main_v53 = Spec.rowOfVec (V0 m c main_arg14)
    ∧ V9 m outs c main_v54 = Spec.rowOfVec (V0 m c main_arg16) ∧ V9 m outs c main_v55 = Spec.rowOfVec (V0 m c main_arg18)
    ∧ V9 m outs c main_v56 = Spec.rowOfVec (V0 m c main_arg20) := by
  have h := rows4 (V8 m outs c)
  rw [(keep m outs c main_arg8).v8, (keep m outs c main_arg10).v8, (keep m outs c main_arg12).v8, (keep m outs c main_arg14).v8,
    (keep m outs c main_arg16).v8, (keep m outs c main_arg18).v8, (keep m outs c main_arg20).v8] at h
  exact h

theorem V7_v46 : V7 m outs c main_v46
    = fun j => Spec.hcat4 (V0 m c main_arg0) (outs 2 main_v14 c) (outs 4 main_v29 c) (outs 6 main_v44 c) (ix2 (j 0 : Fin 100000) (j 2 : Fin 128)) := by
  have h := joined (V6 m outs c)
  rw [(keep m outs c main_arg0).v6, V6_v14 m outs c, V6_v29 m outs c, V6_v44 m outs c] at h
  exact h

end EntryIdeal

end Cert.KernelIdeal.Hand
-- ==== Proof.KValueKI.lean ====
import proofs.«401547_j83227876262380_2_alg».proof.Proof.RunKI
import proofs.«401547_j83227876262380_2_alg».proof.Proof.GcnValKI
import proofs.«401547_j83227876262380_2_alg».proof.Proof.Gcn1ValKI
import proofs.«401547_j83227876262380_2_alg».proof.Proof.Gcn2ValKI
import proofs.«401547_j83227876262380_2_alg».proof.Proof.GatherValKI
import proofs.«401547_j83227876262380_2_alg».proof.Proof.MlpValKI
import proofs.«401547_j83227876262380_2_alg».proof.Proof.HostValKI

noncomputable section

namespace Cert.KernelIdeal.Hand

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

section Compose
variable (m : (ℓ : Loc nD τ sig) → Buf (Elt Ideal) ℓ) (a3 : (pcfg3 (F := Ideal)).Adm) (c : Dev nD)

theorem outs2_2 : outs2 m 2 main_v14 c = o2 m c := by simp only [outs2, Function.update_self]
theorem outs4_4 : outs4 m 4 main_v29 c = o4 m c := by simp only [outs4, Function.update_self]
theorem outs6_2 : outs6 m 2 main_v14 c = o2 m c := by simp only [outs6, Function.update_self]
theorem outs6_4 : outs6 m 4 main_v29 c = o4 m c := by simp only [outs6, Function.update_self]
theorem outs6_6 : outs6 m 6 main_v44 c = o6 m c := by simp only [outs6, Function.update_self]
theorem outs8_8a : outs8 m a3 8 main_v47_0 c = o8a m a3 c := by
  simp only [outs8]
  exact (Function.update_of_ne (StableHlo.devRef_ne_of_ne (by decide : main_v47_0 ≠ main_v47_1) :
    (Proc.devRef .tc main_v47_0 : DevRef τ sig) ≠ Proc.devRef .tc main_v47_1) _ _).trans (Function.update_self _ _ _)
theorem outs8_8b : outs8 m a3 8 main_v47_1 c = o8b m a3 c := by simp only [outs8, Function.update_self]

abbrev kfeat1 : Spec.Mat 100000 32 := Spec.gcn (agg m c (V0 m c main_arg0)) (V0 m c main_arg1) (Spec.rowOfVec (n := 32) (V0 m c main_arg2))
abbrev kfeat2 : Spec.Mat 100000 32 := Spec.gcn (agg m c (kfeat1 m c)) (V0 m c main_arg3) (Spec.rowOfVec (n := 32) (V0 m c main_arg4))
abbrev kfeat3 : Spec.Mat 100000 32 := Spec.gcn (agg m c (kfeat2 m c)) (V0 m c main_arg5) (Spec.rowOfVec (n := 32) (V0 m c main_arg6))
abbrev kfeats : Spec.Mat 100000 128 := Spec.hcat4 (r := 100000) (V0 m c main_arg0) (kfeat1 m c) (kfeat2 m c) (kfeat3 m c)

theorem o2_eq : o2 (F := Ideal) m c = kfeat1 m c :=
  (final0 (rd (V1 m)) c).trans (by simp only [rd, V1_v12 m c, V1_of m c main_arg1 (by decide), V1_v13 m c])

theorem o4_eq : o4 (F := Ideal) m c = kfeat2 m c :=
  (final1 (rd (V3 m (outs2 m))) c).trans (by
    simp only [rd, V3_v27 m (outs2 m) c, (keep m (outs2 m) c main_arg3).v3, V3_v28 m (outs2 m) c, outs2_2 m c, o2_eq])

theorem o6_eq : o6 (F := Ideal) m c = kfeat3 m c :=
  (final2 (rd (V5 m (outs4 m))) c).trans (by
    simp only [rd, V5_v42 m (outs4 m) c, (keep m (outs4 m) c main_arg5).v5, V5_v43 m (outs4 m) c, outs4_4 m c, o4_eq])

theorem v46_eq : V7 m (outs6 m) c main_v46 = fun j : S100000x1x128.Idx => kfeats m c (ix2 (j 0) (j 2)) := by
  rw [V7_v46 m (outs6 m) c, outs6_2 m c, outs6_4 m c, outs6_6 m c, o2_eq, o4_eq, o6_eq]
  rfl

-- The rows of the features the first table names: the gathered array read through its unit middle axis.
theorem v48_eq (hu : ∀ x, (a3.1 0 x).toNat < 100000) : V9 m (outs8 m a3) c main_v48 = Spec.pick (kfeats m c) (a3.1 0) := by
  rw [V9_v48 m (outs8 m a3) c, outs8_8a m a3 c, o8a, final3_2 a3 (rd (V7 m (outs6 m))) c hu]
  show (fun j : S16384x128.Idx => V7 m (outs6 m) c main_v46 _) = _
  rw [v46_eq]
  rfl

theorem v49_eq (hi : ∀ x, (a3.1 1 x).toNat < 100000) : V9 m (outs8 m a3) c main_v49 = Spec.pick (kfeats m c) (a3.1 1) := by
  rw [V9_v49 m (outs8 m a3) c, outs8_8b m a3 c, o8b, final3_3 a3 (rd (V7 m (outs6 m))) c hi]
  show (fun j : S16384x128.Idx => V7 m (outs6 m) c main_v46 _) = _
  rw [v46_eq]
  rfl

-- The last region's operands are the towers' inputs, the launch weights and the biases as rows: the network's own definition.
theorem o10_eq_net (hu : ∀ x, (a3.1 0 x).toNat < 100000) (hi : ∀ x, (a3.1 1 x).toNat < 100000)
    (htab0 : a3.1 0 = (m ((c : Thread nD τ).loc main_arg24))) (htab1 : a3.1 1 = (m ((c : Thread nD τ).loc main_arg25))) :
    o10 (F := Ideal) m a3 c = Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) :=
  (final4 (rd (V9 m (outs8 m a3))) c).trans (by
    have k := fun r h => (keep m (outs8 m a3) c r h).v9
    obtain ⟨e50, e51, e52, e53, e54, e55, e56⟩ := V9_rows m (outs8 m a3) c
    simp only [rd, v48_eq m a3 c hu, v49_eq m a3 c hi, htab0, htab1, e50, e51, e52, e53, e54, e55, e56, k main_arg7 (by decide), k main_arg9 (by decide),
      k main_arg11 (by decide), k main_arg13 (by decide), k main_arg15 (by decide), k main_arg17 (by decide), k main_arg19 (by decide)]
    rfl)

end Compose

end Cert.KernelIdeal.Hand

end
-- ==== Proof.ClaimsValKI.lean ====
import proofs.«401547_j83227876262380_2_alg».proof.Proof.ClaimsKI
import proofs.«401547_j83227876262380_2_alg».proof.Proof.KValueKI
import proofs.«401547_j83227876262380_2_alg».proof.Proof.Spec

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.Sem

theorem frame_pi : Cert.frame_KernelIdeal := fun m g h => frame_of_pre m g h

/-- The result array ends at the specification's network of the launched arguments: the last region's output, stage by stage. -/
theorem kernel_run_net (m : (ℓ : Loc nD τ sig) → Buf (Elt Ideal) ℓ) (ρ : Dev nD → PrngReg) (h : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v57) = Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) ∧ ArgsKept m r.2.mem c) :=
  (θ_run defs _ _).mono (fun r hr c => ⟨(hr c).1.trans (by
      obtain rfl : c = 0 := Subsingleton.elim _ _
      exact (V10_out4 m (admOf m h) 0).trans (o10_eq_net m (admOf m h) 0
        (fun x => (u_range_of_pre _ _ _ _ _ _ _ _ _ _ _ _ _ _ _ _ _ _ _ _ _ _ _ _ _ _ (h 0) x).1) (fun x => (i_range_of_pre _ _ _ _ _ _ _ _ _ _ _ _ _ _ _ _ _ _ _ _ _ _ _ _ _ _ (h 0) x).1) rfl rfl)), (hr c).2⟩)
    (run_of_pre m ρ h)

end Cert.KernelIdeal.Hand

end
-- ==== Proof.RefTailKI.lean ====
import proofs.«401547_j83227876262380_2_alg».proof.ReferenceIdeal
import proofs.«401547_j83227876262380_2_alg».proof.Proof.Gen.ReferenceIdeal
import proofs.«401547_j83227876262380_2_alg».proof.Proof.Spec
import Idealize.ShloMosaic.Lib.Pipeline.Value
import Idealize.ShloMosaic.Lib.ValueIdx
import Idealize.ShloMosaic.Lib.IdealHost
import Idealize.ShloMosaic.Lib.KernelVsHost
import Idealize.ShloMosaic.Lib.StackMember
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open Cert.KernelIdeal.Spec (Mat affine dense hcat32 rowOfVec mlp)

variable {F : FTy → Type} [FloatOps F]

def wrapped (t : (⟨S16384, .i32⟩ : BufTy).Contents (Elt F)) : (⟨S16384, .i32⟩ : BufTy).Contents (Elt F) :=
  select (cmpi .slt t (broadcastInDim S16384 ![] bcast_S_S16384 (constantI S_ 32 0#32)))
    (addi t (broadcastInDim S16384 ![] bcast_S_S16384 (constantI S_ 32 100000#32))) t

def startCol (t : (⟨S16384, .i32⟩ : BufTy).Contents (Elt F)) : (⟨S16384x1, .i32⟩ : BufTy).Contents (Elt F) :=
  broadcastInDim S16384x1 ![0] bcast_S16384_S16384x1_0 (wrapped (F := F) t)

def rowsOf (H : (⟨S100000x128, .f32⟩ : BufTy).Contents (Elt F)) (t : (⟨S16384, .i32⟩ : BufTy).Contents (Elt F)) : (⟨S16384x128, .f32⟩ : BufTy).Contents (Elt F) :=
  Host.gather gather_S100000x128_S16384x1_S16384x128_1_0_n_n_0_1_1128 H (startCol (F := F) t)

theorem wrapped_apply (t : (⟨S16384, .i32⟩ : BufTy).Contents (Elt F)) (i : S16384.Idx) (h : 0 ≤ (t i).toInt) :
    wrapped (F := F) t i = t i := by
  have hz : broadcastInDim S16384 ![] bcast_S_S16384 (constantI S_ 32 0#32) i = 0#32 :=
    broadcastInDim_apply _ bcast_S_S16384 (constantI S_ 32 0#32) i (fun a => a.elim0) (fun a => a.elim0)
  have hlt : (t i).slt 0#32 = false := by
    simp only [BitVec.slt, BitVec.toInt_zero, decide_eq_false_iff_not, Int.not_lt]
    exact h
  show (if BitVec.ofBool ((t i).slt (broadcastInDim S16384 ![] bcast_S_S16384 (constantI S_ 32 0#32) i)) = 1 then _ else _) = _
  rw [hz, hlt]
  rfl

theorem startCol_apply (t : (⟨S16384, .i32⟩ : BufTy).Contents (Elt F)) (p : Fin 16384) (c : Fin 1)
    (h : 0 ≤ (t (ix1 p)).toInt) : startCol (F := F) t (ix2 p c) = t (ix1 p) := by
  unfold startCol
  rw [broadcastInDim_apply _ bcast_S16384_S16384x1_0 _ (ix2 p c) (ix1 p) (fun a => match a with
    | ⟨0, _⟩ => by show p.val = if (16384 : Nat) = 1 then 0 else p.val; rw [if_neg (by decide)])]
  exact wrapped_apply t (ix1 p) h

theorem rows_axis0 (idx : IVec S16384x1 32) (p : Fin 16384) (q : Fin 128) :
    (gather_S100000x128_S16384x1_S16384x128_1_0_n_n_0_1_1128.operandIdx (ix2 p q) idx 0).val
      = min (idx (ix2 p (0 : Fin 1))).toInt.toNat 99999 := by
  show gather_S100000x128_S16384x1_S16384x128_1_0_n_n_0_1_1128.start (ix2 p q) idx 0
    + gather_S100000x128_S16384x1_S16384x128_1_0_n_n_0_1_1128.batchCoord (ix2 p q) 0
    + gather_S100000x128_S16384x1_S16384x128_1_0_n_n_0_1_1128.offCoord (ix2 p q) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S100000x128.rank) ∈ gather_S100000x128_S16384x1_S16384x128_1_0_n_n_0_1_1128.startIndexMap from List.mem_singleton.mpr rfl)]
  have hsi : gather_S100000x128_S16384x1_S16384x128_1_0_n_n_0_1_1128.siIdx (ix2 p q)
      ⟨List.idxOf (0 : Fin S100000x128.rank) gather_S100000x128_S16384x1_S16384x128_1_0_n_n_0_1_1128.startIndexMap,
        List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

theorem rows_axis1 (idx : IVec S16384x1 32) (p : Fin 16384) (q : Fin 128) :
    (gather_S100000x128_S16384x1_S16384x128_1_0_n_n_0_1_1128.operandIdx (ix2 p q) idx 1).val = q.val := by
  show gather_S100000x128_S16384x1_S16384x128_1_0_n_n_0_1_1128.start (ix2 p q) idx 1
    + gather_S100000x128_S16384x1_S16384x128_1_0_n_n_0_1_1128.batchCoord (ix2 p q) 1
    + gather_S100000x128_S16384x1_S16384x128_1_0_n_n_0_1_1128.offCoord (ix2 p q) 1 = _
  rw [GatherDims.batchCoord_eq_zero _ _ _ List.not_mem_nil]
  unfold GatherDims.start GatherDims.offCoord
  rw [dif_neg (show ¬(1 : Fin S100000x128.rank) ∈ gather_S100000x128_S16384x1_S16384x128_1_0_n_n_0_1_1128.startIndexMap by decide),
    dif_pos (show (1 : Fin S100000x128.rank) ∈ gather_S100000x128_S16384x1_S16384x128_1_0_n_n_0_1_1128.sKept by decide)]
  simp only [Nat.zero_add, Nat.add_zero]
  rfl

/-- Table words that are row numbers below 100000 are neither wrapped nor clamped. -/
theorem pick_eq (H : (⟨S100000x128, .f32⟩ : BufTy).Contents (Elt Ideal)) (t : (⟨S16384, .i32⟩ : BufTy).Contents (Elt Ideal))
    (hu : ∀ x, (t x).toNat < 100000 ∧ 0 ≤ (t x).toInt) :
    rowsOf (F := Ideal) H t = Cert.KernelIdeal.Spec.pick H t := by
  funext j
  obtain ⟨p, q, rfl⟩ : ∃ (p : Fin 16384) (q : Fin 128), j = ix2 p q := ⟨j 0, j 1, eq_ix2 j⟩
  have h0 := hu (ix1 p)
  have hs : startCol (F := Ideal) t (ix2 p (0 : Fin 1)) = t (ix1 p) := startCol_apply (F := Ideal) t p 0 h0.2
  show H (gather_S100000x128_S16384x1_S16384x128_1_0_n_n_0_1_1128.operandIdx (ix2 p q) (startCol (F := Ideal) t))
    = H (ix2 (Cert.KernelIdeal.Spec.rowOf (t (ix1 p))) q)
  refine congrArg H (funext fun a => Fin.ext ?_)
  match a with
  | ⟨0, _⟩ =>
    refine (rows_axis0 _ p q).trans ?_
    rw [hs]
    show min (t (ix1 p)).toInt.toNat 99999 = (t (ix1 p)).toNat % 100000
    have h1 := h0.1
    have h2 := h0.2
    rw [BitVec.toInt_eq_toNat_cond] at h2 ⊢
    rw [Nat.mod_eq_of_lt h1]
    split at h2 <;> omega
  | ⟨1, _⟩ => exact rows_axis1 _ p q

def biasA (b : (⟨S64, .f32⟩ : BufTy).Contents (Elt F)) : (⟨S16384x64, .f32⟩ : BufTy).Contents (Elt F) :=
  broadcastInDim S16384x64 ![0, 1] bcast_S1x64_S16384x64_0_1 (broadcastInDim S1x64 ![1] bcast_S64_S1x64_1 b)

def zerosA : (⟨S16384x64, .f32⟩ : BufTy).Contents (Elt F) := broadcastInDim S16384x64 ![] bcast_S_S16384x64 (constant S_ .f32 0x00000000#32)

def layerA (y : (⟨S16384x128, .f32⟩ : BufTy).Contents (Elt F)) (w : (⟨S128x64, .f32⟩ : BufTy).Contents (Elt F)) (b : (⟨S64, .f32⟩ : BufTy).Contents (Elt F)) : (⟨S16384x64, .f32⟩ : BufTy).Contents (Elt F) :=
  maximumf (addf (Host.dotGeneral (φ₁ := .f32) (φ₂ := .f32) dot_S16384x128_S128x64_S16384x64_1_0_0_1_n_n none y w) (biasA (F := F) b)) (zerosA (F := F))

def biasB (b : (⟨S32, .f32⟩ : BufTy).Contents (Elt F)) : (⟨S16384x32, .f32⟩ : BufTy).Contents (Elt F) :=
  broadcastInDim S16384x32 ![0, 1] bcast_S1x32_S16384x32_0_1 (broadcastInDim S1x32 ![1] bcast_S32_S1x32_1 b)

def zerosB : (⟨S16384x32, .f32⟩ : BufTy).Contents (Elt F) := broadcastInDim S16384x32 ![] bcast_S_S16384x32 (constant S_ .f32 0x00000000#32)

def layerB (y : (⟨S16384x64, .f32⟩ : BufTy).Contents (Elt F)) (w : (⟨S64x32, .f32⟩ : BufTy).Contents (Elt F)) (b : (⟨S32, .f32⟩ : BufTy).Contents (Elt F)) : (⟨S16384x32, .f32⟩ : BufTy).Contents (Elt F) :=
  maximumf (addf (Host.dotGeneral (φ₁ := .f32) (φ₂ := .f32) dot_S16384x64_S64x32_S16384x32_1_0_0_1_n_n none y w) (biasB (F := F) b)) (zerosB (F := F))

def biasC (b : (⟨S16, .f32⟩ : BufTy).Contents (Elt F)) : (⟨S16384x16, .f32⟩ : BufTy).Contents (Elt F) :=
  broadcastInDim S16384x16 ![0, 1] bcast_S1x16_S16384x16_0_1 (broadcastInDim S1x16 ![1] bcast_S16_S1x16_1 b)

def zerosC : (⟨S16384x16, .f32⟩ : BufTy).Contents (Elt F) := broadcastInDim S16384x16 ![] bcast_S_S16384x16 (constant S_ .f32 0x00000000#32)

def layerC (y : (⟨S16384x32, .f32⟩ : BufTy).Contents (Elt F)) (w : (⟨S32x16, .f32⟩ : BufTy).Contents (Elt F)) (b : (⟨S16, .f32⟩ : BufTy).Contents (Elt F)) : (⟨S16384x16, .f32⟩ : BufTy).Contents (Elt F) :=
  maximumf (addf (Host.dotGeneral (φ₁ := .f32) (φ₂ := .f32) dot_S16384x32_S32x16_S16384x16_1_0_0_1_n_n none y w) (biasC (F := F) b)) (zerosC (F := F))

def biasD (b : (⟨S1, .f32⟩ : BufTy).Contents (Elt F)) : (⟨S16384x1, .f32⟩ : BufTy).Contents (Elt F) :=
  broadcastInDim S16384x1 ![0, 1] bcast_S1x1_S16384x1_0_1 (broadcastInDim S1x1 ![1] bcast_S1_S1x1_1 b)

def affineD (y : (⟨S16384x16, .f32⟩ : BufTy).Contents (Elt F)) (w : (⟨S16x1, .f32⟩ : BufTy).Contents (Elt F)) (b : (⟨S1, .f32⟩ : BufTy).Contents (Elt F)) : (⟨S16384x1, .f32⟩ : BufTy).Contents (Elt F) :=
  addf (Host.dotGeneral (φ₁ := .f32) (φ₂ := .f32) dot_S16384x16_S16x1_S16384x1_1_0_0_1_n_n none y w) (biasD (F := F) b)

section Layer

variable {m k n : ℕ} (h1 : (⟨2, ![1, n]⟩ : Shape).BroadcastsInDim ⟨2, ![m, n]⟩ ![0, 1]) (h2 : (⟨1, ![n]⟩ : Shape).BroadcastsInDim ⟨2, ![1, n]⟩ ![1])
  (h0 : (⟨0, ![]⟩ : Shape).BroadcastsInDim ⟨2, ![m, n]⟩ ![]) (y : Mat m k) (w : Mat k n) (b : FVec Ideal ⟨1, ![n]⟩ .f32)

/-- A vector laid along every row reads, at a row and a column, the vector at the column. -/
theorem rowBias_apply (p : Fin m) (q : Fin n) :
    broadcastInDim ⟨2, ![m, n]⟩ ![0, 1] h1 (broadcastInDim ⟨2, ![1, n]⟩ ![1] h2 b) (ix2 p q) = b (ix1 q) := by
  rw [broadcastInDim_oneRow_apply]
  refine broadcastInDim_apply _ h2 b _ (ix1 q) fun a => ?_
  match a with
  | ⟨0, _⟩ => show q.val = if n = 1 then 0 else q.val; have := q.isLt; split <;> omega

/-- A product with a bias on every row is the specification's affine map of any shape. -/
theorem affine_eq :
    addf (Host.dotGeneral (DotDims.plain m k n) none y w) (broadcastInDim ⟨2, ![m, n]⟩ ![0, 1] h1 (broadcastInDim ⟨2, ![1, n]⟩ ![1] h2 b))
      = affine y w (rowOfVec b) := by
  funext j
  obtain ⟨p, q, rfl⟩ : ∃ (p : Fin m) (q : Fin n), j = ix2 p q := ⟨j 0, j 1, eq_ix2 j⟩
  rw [addf_apply, StackMember.dotGeneral_plain_apply, rowBias_apply]
  rfl

/-- Its maximum with the zero splat is the specification's dense layer. -/
theorem dense_eq :
    maximumf (addf (Host.dotGeneral (DotDims.plain m k n) none y w) (broadcastInDim ⟨2, ![m, n]⟩ ![0, 1] h1 (broadcastInDim ⟨2, ![1, n]⟩ ![1] h2 b)))
        (broadcastInDim ⟨2, ![m, n]⟩ ![] h0 (constant ⟨0, ![]⟩ .f32 0x00000000#32))
      = dense y w (rowOfVec b) := by
  rw [affine_eq]
  funext j
  exact congrArg (max _) ((broadcastInDim_scalar_apply h0 _ j).trans Ideal.ofBits_zero_f32)

end Layer

theorem layerA_eq (y : Mat 16384 128) (w : Mat 128 64) (b : FVec Ideal S64 .f32) : layerA (F := Ideal) y w b = dense y w (rowOfVec b) := dense_eq _ _ _ y w b
theorem layerB_eq (y : Mat 16384 64) (w : Mat 64 32) (b : FVec Ideal S32 .f32) : layerB (F := Ideal) y w b = dense y w (rowOfVec b) := dense_eq _ _ _ y w b
theorem layerC_eq (y : Mat 16384 32) (w : Mat 32 16) (b : FVec Ideal S16 .f32) : layerC (F := Ideal) y w b = dense y w (rowOfVec b) := dense_eq _ _ _ y w b
theorem affineD_eq (y : Mat 16384 16) (w : Mat 16 1) (b : FVec Ideal S1 .f32) : affineD (F := Ideal) y w b = affine y w (rowOfVec b) := affine_eq _ _ y w b

def sideBySide (a b : (⟨S16384x32, .f32⟩ : BufTy).Contents (Elt F)) : (⟨S16384x64, .f32⟩ : BufTy).Contents (Elt F) :=
  concatenate S16384x64 1 [⟨S16384x32, a⟩, ⟨S16384x32, b⟩] concatenates_S16384x32_S16384x32_S16384x64_d1

theorem sideBySide_eq (a b : (⟨S16384x32, .f32⟩ : BufTy).Contents (Elt Ideal)) : sideBySide (F := Ideal) a b = Cert.KernelIdeal.Spec.hcat32 (r := 16384) a b := by
  funext j
  obtain ⟨p, q, rfl⟩ : ∃ (p : Fin 16384) (q : Fin 64), j = ix2 p q := ⟨j 0, j 1, eq_ix2 j⟩
  unfold sideBySide
  by_cases h : (q : ℕ) < 32
  · refine (concatenate_pair_apply_left (1 : Fin S16384x64.rank) a b _ (ix2 p q) rfl (ix2 p (⟨(q : ℕ), h⟩ : Fin 32))
      (fun c => match c with | ⟨0, _⟩ => rfl | ⟨1, _⟩ => rfl)).trans ?_
    show a (ix2 p (⟨(q : ℕ), h⟩ : Fin 32)) = dite ((q : ℕ) < 32) (fun h1 => a (ix2 p (⟨(q : ℕ), h1⟩ : Fin 32))) (fun h1 => b (ix2 p (⟨(q : ℕ) - 32, _⟩ : Fin 32)))
    rw [dif_pos h]
  · have h64 : (q : ℕ) < 64 := q.isLt
    refine (concatenate_pair_apply_right (1 : Fin S16384x64.rank) a b _ (ix2 p q) rfl rfl
      (ix2 p (⟨(q : ℕ) - 32, by omega⟩ : Fin 32))
      (fun c hc => match c, hc with | ⟨0, _⟩, _ => rfl | ⟨1, _⟩, hc => absurd rfl hc)
      (by show (q : ℕ) - 32 + 32 = (q : ℕ); omega)).trans ?_
    show b (ix2 p (⟨(q : ℕ) - 32, _⟩ : Fin 32)) = dite ((q : ℕ) < 32) (fun h1 => a (ix2 p (⟨(q : ℕ), h1⟩ : Fin 32))) (fun h1 => b (ix2 p (⟨(q : ℕ) - 32, _⟩ : Fin 32)))
    rw [dif_neg h]

def logisticOf (z : (⟨S16384x1, .f32⟩ : BufTy).Contents (Elt F)) : (⟨S16384x1, .f32⟩ : BufTy).Contents (Elt F) :=
  Host.divf (broadcastInDim S16384x1 ![] bcast_S_S16384x1 (constant S_ .f32 0x3F800000#32))
    (addf (broadcastInDim S16384x1 ![] bcast_S_S16384x1 (constant S_ .f32 0x3F800000#32)) (Host.exp (Host.negf z)))

theorem logisticOf_apply (z : (⟨S16384x1, .f32⟩ : BufTy).Contents (Elt Ideal)) (i : S16384x1.Idx) : logisticOf (F := Ideal) z i = Ideal.logistic (z i) := by
  have h1 : broadcastInDim S16384x1 ![] bcast_S_S16384x1 (constant (F := Ideal) S_ .f32 0x3F800000#32) i = (1 : EReal) := by
    rw [broadcastInDim_apply _ bcast_S_S16384x1 (constant (F := Ideal) S_ .f32 0x3F800000#32) i (fun a => a.elim0) (fun a => a.elim0)]
    show FloatOps.ofBits (F := Ideal) .f32 0x3F800000#32 = 1
    rw [Ideal.ofBits_def, Ideal.ofBits_one_f32]
  show FloatOps.hostDivf (broadcastInDim S16384x1 ![] bcast_S_S16384x1 (constant (F := Ideal) S_ .f32 0x3F800000#32) i)
    (FloatOps.addf (broadcastInDim S16384x1 ![] bcast_S_S16384x1 (constant (F := Ideal) S_ .f32 0x3F800000#32) i)
      (FloatOps.hostUnary .exp (FloatOps.hostNegf (z i)))) = _
  rw [h1]
  rfl

def tailOf (uf vf : (⟨S16384x128, .f32⟩ : BufTy).Contents (Elt F))
    (x7 : (⟨S128x64, .f32⟩ : BufTy).Contents (Elt F)) (x8 : (⟨S64, .f32⟩ : BufTy).Contents (Elt F)) (x9 : (⟨S64x32, .f32⟩ : BufTy).Contents (Elt F)) (x10 : (⟨S32, .f32⟩ : BufTy).Contents (Elt F))
    (x11 : (⟨S128x64, .f32⟩ : BufTy).Contents (Elt F)) (x12 : (⟨S64, .f32⟩ : BufTy).Contents (Elt F)) (x13 : (⟨S64x32, .f32⟩ : BufTy).Contents (Elt F)) (x14 : (⟨S32, .f32⟩ : BufTy).Contents (Elt F))
    (x15 : (⟨S64x32, .f32⟩ : BufTy).Contents (Elt F)) (x16 : (⟨S32, .f32⟩ : BufTy).Contents (Elt F)) (x17 : (⟨S32x16, .f32⟩ : BufTy).Contents (Elt F)) (x18 : (⟨S16, .f32⟩ : BufTy).Contents (Elt F))
    (x19 : (⟨S16x1, .f32⟩ : BufTy).Contents (Elt F)) (x20 : (⟨S1, .f32⟩ : BufTy).Contents (Elt F)) : (⟨S16384x1, .f32⟩ : BufTy).Contents (Elt F) :=
  logisticOf (affineD (layerC (layerB (sideBySide (layerB (layerA uf x7 x8) x9 x10) (layerB (layerA vf x11 x12) x13 x14)) x15 x16) x17 x18) x19 x20)

/-- Layer by layer the stretch is the specification's towers and head; the gathered rows are the picked rows. -/
theorem tail_of_features (H : (⟨S100000x128, .f32⟩ : BufTy).Contents (Elt Ideal)) (x24 x25 : (⟨S16384, .i32⟩ : BufTy).Contents (Elt Ideal))
    (x7 : (⟨S128x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal))
    (x11 : (⟨S128x64, .f32⟩ : BufTy).Contents (Elt Ideal)) (x12 : (⟨S64, .f32⟩ : BufTy).Contents (Elt Ideal)) (x13 : (⟨S64x32, .f32⟩ : BufTy).Contents (Elt Ideal)) (x14 : (⟨S32, .f32⟩ : BufTy).Contents (Elt Ideal))
    (x15 : (⟨S64x32, .f32⟩ : BufTy).Contents (Elt Ideal)) (x16 : (⟨S32, .f32⟩ : BufTy).Contents (Elt Ideal)) (x17 : (⟨S32x16, .f32⟩ : BufTy).Contents (Elt Ideal)) (x18 : (⟨S16, .f32⟩ : BufTy).Contents (Elt Ideal))
    (x19 : (⟨S16x1, .f32⟩ : BufTy).Contents (Elt Ideal)) (x20 : (⟨S1, .f32⟩ : BufTy).Contents (Elt Ideal))
    (hu : ∀ x, (x24 x).toNat < 100000 ∧ 0 ≤ (x24 x).toInt) (hi : ∀ x, (x25 x).toNat < 100000 ∧ 0 ≤ (x25 x).toInt) :
    tailOf (F := Ideal) (rowsOf (F := Ideal) H x24) (rowsOf (F := Ideal) H x25) x7 x8 x9 x10 x11 x12 x13 x14 x15 x16 x17 x18 x19 x20
      = Cert.KernelIdeal.Spec.mlp (r := 16384) (Cert.KernelIdeal.Spec.pick H x24) (Cert.KernelIdeal.Spec.pick H x25) x7 (Cert.KernelIdeal.Spec.rowOfVec x8) x9 (Cert.KernelIdeal.Spec.rowOfVec x10) x11 (Cert.KernelIdeal.Spec.rowOfVec x12) x13 (Cert.KernelIdeal.Spec.rowOfVec x14)
          x15 (Cert.KernelIdeal.Spec.rowOfVec x16) x17 (Cert.KernelIdeal.Spec.rowOfVec x18) x19 (Cert.KernelIdeal.Spec.rowOfVec x20) := by
  rw [pick_eq H x24 hu, pick_eq H x25 hi]
  unfold tailOf mlp
  rw [layerA_eq, layerA_eq, layerB_eq, layerB_eq, sideBySide_eq, layerB_eq, layerC_eq, affineD_eq]
  funext i
  rw [logisticOf_apply]
  rfl

end Cert.ReferenceIdeal.RefValue

end
-- ==== Proof.RefTailTieKI.lean ====
import proofs.«401547_j83227876262380_2_alg».proof.Proof.Gen.ReferenceIdeal.Read
import proofs.«401547_j83227876262380_2_alg».proof.Proof.RefTailKI

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- Each operation after the feature array is, by unfolding, the stretch's function of that shape on the values before it. -/
theorem ref_tail (x0 : (⟨S100000x32, .f32⟩ : BufTy).Contents (Elt Ideal)) (x1 : (⟨S32x32, .f32⟩ : BufTy).Contents (Elt Ideal)) (x2 : (⟨S32, .f32⟩ : BufTy).Contents (Elt Ideal)) (x3 : (⟨S32x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S128x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S128x64, .f32⟩ : BufTy).Contents (Elt Ideal)) (x12 : (⟨S64, .f32⟩ : BufTy).Contents (Elt Ideal)) (x13 : (⟨S64x32, .f32⟩ : BufTy).Contents (Elt Ideal)) (x14 : (⟨S32, .f32⟩ : BufTy).Contents (Elt Ideal)) (x15 : (⟨S64x32, .f32⟩ : BufTy).Contents (Elt Ideal)) (x16 : (⟨S32, .f32⟩ : BufTy).Contents (Elt Ideal)) (x17 : (⟨S32x16, .f32⟩ : BufTy).Contents (Elt Ideal)) (x18 : (⟨S16, .f32⟩ : BufTy).Contents (Elt Ideal)) (x19 : (⟨S16x1, .f32⟩ : BufTy).Contents (Elt Ideal)) (x20 : (⟨S1, .f32⟩ : BufTy).Contents (Elt Ideal)) (x21 x22 : (⟨S1700000, .i32⟩ : BufTy).Contents (Elt Ideal)) (x23 : (⟨S1700000, .f32⟩ : BufTy).Contents (Elt Ideal)) (x24 x25 : (⟨S16384, .i32⟩ : BufTy).Contents (Elt Ideal))
    (H : (⟨S100000x128, .f32⟩ : BufTy).Contents (Elt Ideal)) (hH : val_main_v54 (F := Ideal) x0 x1 x2 x3 x4 x5 x6 x21 x22 x23 = H)
    (hu : ∀ x, (x24 x).toNat < 100000 ∧ 0 ≤ (x24 x).toInt) (hi : ∀ x, (x25 x).toNat < 100000 ∧ 0 ≤ (x25 x).toInt) :
    val_main_v109 (F := Ideal) x0 x1 x2 x3 x4 x5 x6 x7 x8 x9 x10 x11 x12 x13 x14 x15 x16 x17 x18 x19 x20 x21 x22 x23 x24 x25
      = Cert.KernelIdeal.Spec.mlp (r := 16384) (Cert.KernelIdeal.Spec.pick H x24) (Cert.KernelIdeal.Spec.pick H x25) x7 (Cert.KernelIdeal.Spec.rowOfVec x8) x9 (Cert.KernelIdeal.Spec.rowOfVec x10) x11 (Cert.KernelIdeal.Spec.rowOfVec x12) x13 (Cert.KernelIdeal.Spec.rowOfVec x14)
          x15 (Cert.KernelIdeal.Spec.rowOfVec x16) x17 (Cert.KernelIdeal.Spec.rowOfVec x18) x19 (Cert.KernelIdeal.Spec.rowOfVec x20) := by
  subst hH
  exact tail_of_features _ x24 x25 x7 x8 x9 x10 x11 x12 x13 x14 x15 x16 x17 x18 x19 x20 hu hi

end Cert.ReferenceIdeal.RefValue

end
-- ==== Proof.RefClaimsKI.lean ====
import proofs.«401547_j83227876262380_2_alg».proof.Defs
import proofs.«401547_j83227876262380_2_alg».proof.Proof.Gen.ReferenceIdeal
import proofs.«401547_j83227876262380_2_alg».proof.Proof.Gen.Pre_finite_inputs
import proofs.«401547_j83227876262380_2_alg».proof.Proof.Gen.ReferenceIdeal.Run
import proofs.«401547_j83227876262380_2_alg».proof.Proof.Gen.ReferenceIdeal.Read
import proofs.«401547_j83227876262380_2_alg».proof.Proof.Spec
import proofs.«401547_j83227876262380_2_alg».proof.Proof.RefGcnKI
import proofs.«401547_j83227876262380_2_alg».proof.Proof.RefTailTieKI

noncomputable section

namespace Cert.ReferenceIdeal.RefValue

open Cert.ReferenceIdeal Cert.ReferenceIdeal.Gen Cert.ReferenceIdeal.Read Idealize.ShloMosaic Idealize.ShloMosaic.TcCoe Idealize.SL.Sem

theorem ref_net (x0 : (⟨S100000x32, .f32⟩ : BufTy).Contents (Elt Ideal)) (x1 : (⟨S32x32, .f32⟩ : BufTy).Contents (Elt Ideal)) (x2 : (⟨S32, .f32⟩ : BufTy).Contents (Elt Ideal)) (x3 : (⟨S32x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S128x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S128x64, .f32⟩ : BufTy).Contents (Elt Ideal)) (x12 : (⟨S64, .f32⟩ : BufTy).Contents (Elt Ideal)) (x13 : (⟨S64x32, .f32⟩ : BufTy).Contents (Elt Ideal)) (x14 : (⟨S32, .f32⟩ : BufTy).Contents (Elt Ideal)) (x15 : (⟨S64x32, .f32⟩ : BufTy).Contents (Elt Ideal)) (x16 : (⟨S32, .f32⟩ : BufTy).Contents (Elt Ideal)) (x17 : (⟨S32x16, .f32⟩ : BufTy).Contents (Elt Ideal)) (x18 : (⟨S16, .f32⟩ : BufTy).Contents (Elt Ideal)) (x19 : (⟨S16x1, .f32⟩ : BufTy).Contents (Elt Ideal)) (x20 : (⟨S1, .f32⟩ : BufTy).Contents (Elt Ideal)) (x21 : (⟨S1700000, .i32⟩ : BufTy).Contents (Elt Ideal)) (x22 : (⟨S1700000, .i32⟩ : BufTy).Contents (Elt Ideal)) (x23 : (⟨S1700000, .f32⟩ : BufTy).Contents (Elt Ideal)) (x24 : (⟨S16384, .i32⟩ : BufTy).Contents (Elt Ideal)) (x25 : (⟨S16384, .i32⟩ : BufTy).Contents (Elt Ideal))
    (hu : ∀ x, (x24 x).toNat < 100000 ∧ 0 ≤ (x24 x).toInt) (hi : ∀ x, (x25 x).toNat < 100000 ∧ 0 ≤ (x25 x).toInt) :
    val_main_v109 (F := Ideal) x0 x1 x2 x3 x4 x5 x6 x7 x8 x9 x10 x11 x12 x13 x14 x15 x16 x17 x18 x19 x20 x21 x22 x23 x24 x25
      = Cert.KernelIdeal.Spec.net x0 x1 x2 x3 x4 x5 x6 x7 x8 x9 x10 x11 x12 x13 x14 x15 x16 x17 x18 x19 x20 x21 x22 x23 x24 x25 := by
  unfold Cert.KernelIdeal.Spec.net
  exact ref_tail x0 x1 x2 x3 x4 x5 x6 x7 x8 x9 x10 x11 x12 x13 x14 x15 x16 x17 x18 x19 x20 x21 x22 x23 x24 x25 _ (feats_eq x0 x1 x2 x3 x4 x5 x6 x21 x22 x23) hu hi

theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue
-- ==== Proof.AlgebraicKI.lean ====
import proofs.«401547_j83227876262380_2_alg».proof.Defs
import proofs.«401547_j83227876262380_2_alg».proof.Proof.Gen.KernelIdeal
import proofs.«401547_j83227876262380_2_alg».proof.Proof.Gen.ReferenceIdeal
import proofs.«401547_j83227876262380_2_alg».proof.Proof.Gen.Pre_finite_inputs
import proofs.«401547_j83227876262380_2_alg».proof.Proof.Spec
import proofs.«401547_j83227876262380_2_alg».proof.Proof.OkOfPreKI
import proofs.«401547_j83227876262380_2_alg».proof.Proof.RefClaimsKI
import proofs.«401547_j83227876262380_2_alg».proof.Proof.ClaimsValKI

noncomputable section

open Idealize.ShloMosaic Idealize.SL.Sem

namespace Cert.Proof.Hand

open Idealize.ShloMosaic Idealize.SL.Sem

set_option maxHeartbeats 4000000 in
/-- From arguments that agree both programs end at the network of the arguments; the reference's tables hold row numbers because the kernel's do. -/
theorem algebraic : Cert.algebraic_KernelIdeal_ReferenceIdeal := by
  intro m ρ m' ρ' hpre hagree
  refine ⟨_, Cert.KernelIdeal.Hand.kernel_run_net m ρ hpre, ?_⟩
  refine (θ_run (Cert.ReferenceIdeal.defs (F := Ideal)) _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23, e24, e25⟩ := hagree c
  rw [Cert.ReferenceIdeal.Read.val_main_v109_eq (F := Ideal) m' c, Cert.ReferenceIdeal.RefValue.ref_net _ _ _ _ _ _ _ _ _ _ _ _ _ _ _ _ _ _ _ _ _ _ _ _ _ _
    (by rw [e24]; exact Cert.KernelIdeal.Hand.u_range_of_pre _ _ _ _ _ _ _ _ _ _ _ _ _ _ _ _ _ _ _ _ _ _ _ _ _ _ (hpre c)) (by rw [e25]; exact Cert.KernelIdeal.Hand.i_range_of_pre _ _ _ _ _ _ _ _ _ _ _ _ _ _ _ _ _ _ _ _ _ _ _ _ _ _ (hpre c)),
    e0, e1, e2, e3, e4, e5, e6, e7, e8, e9, e10, e11, e12, e13, e14, e15, e16, e17, e18, e19, e20, e21, e22, e23, e24, e25]

end Cert.Proof.Hand

end
-- ==== Proof.lean ====
import proofs.«401547_j83227876262380_2_alg».proof.Defs
import proofs.«401547_j83227876262380_2_alg».proof.Proof.Gen.Kernel
import proofs.«401547_j83227876262380_2_alg».proof.Proof.Gen.KernelIdeal
import proofs.«401547_j83227876262380_2_alg».proof.Proof.Gen.ReferenceIdeal
import proofs.«401547_j83227876262380_2_alg».proof.Proof.Gen.Pre_finite_inputs
import proofs.«401547_j83227876262380_2_alg».proof.Proof.ClaimsBitsK
import proofs.«401547_j83227876262380_2_alg».proof.Proof.ClaimsValKI
import proofs.«401547_j83227876262380_2_alg».proof.Proof.RefClaimsKI
import proofs.«401547_j83227876262380_2_alg».proof.Proof.AlgebraicKI
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Kernel.Hand.frame_p, Cert.KernelIdeal.Hand.frame_pi, Cert.ReferenceIdeal.RefValue.frame_ri, trivial,
    Cert.Proof.Hand.algebraic⟩

end Cert.Proof

end
